-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S512x3 : Shape := ⟨2, ![512, 3]⟩
abbrev S27x3 : Shape := ⟨2, ![27, 3]⟩
abbrev S3x3 : Shape := ⟨2, ![3, 3]⟩
abbrev S95x95x5x5x3 : Shape := ⟨5, ![95, 95, 5, 5, 3]⟩
abbrev S95x95 : Shape := ⟨2, ![95, 95]⟩
abbrev S95 : Shape := ⟨1, ![95]⟩
abbrev S_ : Shape := ⟨0, ![]⟩

class Facts : Prop where
  bcast_S_S512x3 : S_.BroadcastsInDim S512x3 (![] : Fin 0 → Fin S512x3.rank)
  reducesTo_S512x3_S_d0_1 : S512x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_
  bcast_S_S95x95x5x5x3 : S_.BroadcastsInDim S95x95x5x5x3 (![] : Fin 0 → Fin S95x95x5x5x3.rank)
  reducesTo_S95x95x5x5x3_S_d0_1_2_3_4 : S95x95x5x5x3.ReducesTo [0, 1, 2, 3, 4] S_
  bcast_S_S95x95 : S_.BroadcastsInDim S95x95 (![] : Fin 0 → Fin S95x95.rank)
  reducesTo_S95x95_S_d0_1 : S95x95.ReducesTo [0, 1] S_
  bcast_S_S95 : S_.BroadcastsInDim S95 (![] : Fin 0 → Fin S95.rank)
  reducesTo_S95_S_d0 : S95.ReducesTo [0] S_

variable [Facts]

def fn_part1 {F : FTy → Type} [FloatOps F] (main_arg6 : FVec F S95 .f32) (main_arg7 : FVec F S95 .f32) (main_v13 : IVec S_ 1) (main_v16 : IVec S95x95 1) : IVec S_ 1 :=
  let main_c_5 : IVec S_ 1 := constantI S_ 1 1#1
  let main_v17 : IVec S_ 1 := (fun x v => Host.reduce IntOp.andi x v reducesTo_S95x95_S_d0_1 h_S_) main_v16 main_c_5
  let main_v18 : IVec S_ 1 := andi main_v13 main_v17
  let main_v19 : FVec F S95 .f32 := Host.absf main_arg6
  let main_cst_6 : FVec F S_ .f32 := constant S_ .f32 0x7F800000#32
  let main_v20 : FVec F S95 .f32 := broadcastInDim S95 ![] bcast_S_S95 main_cst_6
  let main_v21 : IVec S95 1 := cmpf .olt main_v19 main_v20
  let main_c_7 : IVec S_ 1 := constantI S_ 1 1#1
  let main_v22 : IVec S_ 1 := (fun x v => Host.reduce IntOp.andi x v reducesTo_S95_S_d0 h_S_) main_v21 main_c_7
  let main_v23 : IVec S_ 1 := andi main_v18 main_v22
  let main_v24 : FVec F S95 .f32 := Host.absf main_arg7
  let main_cst_8 : FVec F S_ .f32 := constant S_ .f32 0x7F800000#32
  let main_v25 : FVec F S95 .f32 := broadcastInDim S95 ![] bcast_S_S95 main_cst_8
  let main_v26 : IVec S95 1 := cmpf .olt main_v24 main_v25
  let main_c_9 : IVec S_ 1 := constantI S_ 1 1#1
  let main_v27 : IVec S_ 1 := (fun x v => Host.reduce IntOp.andi x v reducesTo_S95_S_d0 h_S_) main_v26 main_c_9
  let main_v28 : IVec S_ 1 := andi main_v23 main_v27
  main_v28

def fn {F : FTy → Type} [FloatOps F] (main_arg0 : IVec S512 32) (main_arg1 : FVec F S512x3 .f32) (main_arg2 : IVec S27x3 32) (main_arg3 : FVec F S3x3 .f32) (main_arg4 : FVec F S95x95x5x5x3 .f32) (main_arg5 : FVec F S95x95 .f32) (main_arg6 : FVec F S95 .f32) (main_arg7 : FVec F S95 .f32) : IVec S_ 1 :=
  let main_v0 : FVec F S512x3 .f32 := Host.absf main_arg1
  let main_cst : FVec F S_ .f32 := constant S_ .f32 0x7F800000#32
  let main_v1 : FVec F S512x3 .f32 := broadcastInDim S512x3 ![] bcast_S_S512x3 main_cst
  let main_v2 : IVec S512x3 1 := cmpf .olt main_v0 main_v1
  let main_c : IVec S_ 1 := constantI S_ 1 1#1
  let main_v3 : IVec S_ 1 := (fun x v => Host.reduce IntOp.andi x v reducesTo_S512x3_S_d0_1 h_S_) main_v2 main_c
  let main_v4 : FVec F S3x3 .f32 := Host.absf main_arg3
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S95x95x5x5x3 .f32 := Host.absf main_arg4
  let main_cst_2 : FVec F S_ .f32 := constant S_ .f32 0x7F800000#32
  let main_v10 : FVec F S95x95x5x5x3 .f32 := broadcastInDim S95x95x5x5x3 ![] bcast_S_S95x95x5x5x3 main_cst_2
  let main_v11 : IVec S95x95x5x5x3 1 := cmpf .olt main_v9 main_v10
  let main_c_3 : IVec S_ 1 := constantI S_ 1 1#1
  let main_v12 : IVec S_ 1 := (fun x v => Host.reduce IntOp.andi x v reducesTo_S95x95x5x5x3_S_d0_1_2_3_4 h_S_) main_v11 main_c_3
  let main_v13 : IVec S_ 1 := andi main_v8 main_v12
  let main_v14 : FVec F S95x95 .f32 := Host.absf main_arg5
  let main_cst_4 : FVec F S_ .f32 := constant S_ .f32 0x7F800000#32
  let main_v15 : FVec F S95x95 .f32 := broadcastInDim S95x95 ![] bcast_S_S95x95 main_cst_4
  let main_v16 : IVec S95x95 1 := cmpf .olt main_v14 main_v15
  fn_part1 (F := F) main_arg6 main_arg7 main_v13 main_v16
-- ==== Kernel.lean ====
abbrev S512 : Shape := ⟨1, ![512]⟩
abbrev S512x3 : Shape := ⟨2, ![512, 3]⟩
abbrev S27x3 : Shape := ⟨2, ![27, 3]⟩
abbrev S3x3 : Shape := ⟨2, ![3, 3]⟩
abbrev S95x95x5x5x3 : Shape := ⟨5, ![95, 95, 5, 5, 3]⟩
abbrev S95x95 : Shape := ⟨2, ![95, 95]⟩
abbrev S95 : Shape := ⟨1, ![95]⟩
abbrev S_ : Shape := ⟨0, ![]⟩
abbrev S3x512 : Shape := ⟨2, ![3, 512]⟩
abbrev S512x1 : Shape := ⟨2, ![512, 1]⟩
abbrev S1x512 : Shape := ⟨2, ![1, 512]⟩
abbrev S95x95x3x5x5 : Shape := ⟨5, ![95, 95, 3, 5, 5]⟩
abbrev S95x95x75 : Shape := ⟨3, ![95, 95, 75]⟩
abbrev S512x512 : Shape := ⟨2, ![512, 512]⟩
abbrev S512x512x1 : Shape := ⟨3, ![512, 512, 1]⟩
abbrev S512x512x2 : Shape := ⟨3, ![512, 512, 2]⟩
abbrev S512x512x75 : Shape := ⟨3, ![512, 512, 75]⟩
abbrev S512x75x512 : Shape := ⟨3, ![512, 75, 512]⟩
abbrev S32x3 : Shape := ⟨2, ![32, 3]⟩
abbrev S3x128 : Shape := ⟨2, ![3, 128]⟩
abbrev S32x1 : Shape := ⟨2, ![32, 1]⟩
abbrev S1x128 : Shape := ⟨2, ![1, 128]⟩
abbrev S32x1x1 : Shape := ⟨3, ![32, 1, 1]⟩
abbrev S1x1x128 : Shape := ⟨3, ![1, 1, 128]⟩
abbrev S27x1 : Shape := ⟨2, ![27, 1]⟩
abbrev S1x27x1 : Shape := ⟨3, ![1, 27, 1]⟩
abbrev S32x1x128 : Shape := ⟨3, ![32, 1, 128]⟩
abbrev S32x27x128 : Shape := ⟨3, ![32, 27, 128]⟩
abbrev S32x128 : Shape := ⟨2, ![32, 128]⟩
abbrev S32 : Shape := ⟨1, ![32]⟩
abbrev S32x75x128 : Shape := ⟨3, ![32, 75, 128]⟩
abbrev S32x25x128 : Shape := ⟨3, ![32, 25, 128]⟩

abbrev nBuf : Space → Nat
  | .hbm => 93
  | .vmem => 32
  | .smem => 0
  | _ => 0

abbrev bufTy : (tb : Table) → Fin (tcTables nBuf tb) → BufTy
  | .hbm, ⟨0, _⟩ => ⟨S512, .i32⟩
  | .hbm, ⟨1, _⟩ => ⟨S512x3, .f32⟩
  | .hbm, ⟨2, _⟩ => ⟨S27x3, .i32⟩
  | .hbm, ⟨3, _⟩ => ⟨S3x3, .f32⟩
  | .hbm, ⟨4, _⟩ => ⟨S95x95x5x5x3, .f32⟩
  | .hbm, ⟨5, _⟩ => ⟨S95x95, .f32⟩
  | .hbm, ⟨6, _⟩ => ⟨S95, .f32⟩
  | .hbm, ⟨7, _⟩ => ⟨S95, .f32⟩
  | .hbm, ⟨8, _⟩ => ⟨S_, .f32⟩
  | .hbm, ⟨9, _⟩ => ⟨S512x3, .f32⟩
  | .hbm, ⟨10, _⟩ => ⟨S512x3, .f32⟩
  | .hbm, ⟨11, _⟩ => ⟨S3x512, .f32⟩
  | .hbm, ⟨12, _⟩ => ⟨S_, .f32⟩
  | .hbm, ⟨13, _⟩ => ⟨S3x3, .f32⟩
  | .hbm, ⟨14, _⟩ => ⟨S3x3, .f32⟩
  | .hbm, ⟨15, _⟩ => ⟨S27x3, .f32⟩
  | .hbm, ⟨16, _⟩ => ⟨S27x3, .f32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S512, .f32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S512, .f32⟩
  | .hbm, ⟨35, _⟩ => ⟨S512x1, .f32⟩
  | .hbm, ⟨36, _⟩ => ⟨S1x512, .f32⟩
  | .hbm, ⟨37, _⟩ => ⟨S512x1, .f32⟩
  | .hbm, ⟨38, _⟩ => ⟨S1x512, .f32⟩
  | .hbm, ⟨39, _⟩ => ⟨S95x95x3x5x5, .f32⟩
  | .hbm, ⟨40, _⟩ => ⟨S95x95x75, .f32⟩
  | .hbm, ⟨41, _⟩ => ⟨S512x1, .i32⟩
  | .hbm, ⟨42, _⟩ => ⟨S1x512, .i32⟩
  | .hbm, ⟨43, _⟩ => ⟨S_, .i32⟩
  | .hbm, ⟨44, _⟩ => ⟨S512x1, .i32⟩
  | .hbm, ⟨45, _⟩ => ⟨S512x1, .i1⟩
  | .hbm, ⟨46, _⟩ => ⟨S_, .i32⟩
  | .hbm, ⟨47, _⟩ => ⟨S512x1, .i32⟩
  | .hbm, ⟨48, _⟩ => ⟨S512x1, .i32⟩
  | .hbm, ⟨49, _⟩ => ⟨S512x1, .i32⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S_, .i32⟩
  | .hbm, ⟨54, _⟩ => ⟨S1x512, .i32⟩
  | .hbm, ⟨55, _⟩ => ⟨S1x512, .i32⟩
  | .hbm, ⟨56, _⟩ => ⟨S1x512, .i32⟩
  | .hbm, ⟨57, _⟩ => ⟨S512x512, .i32⟩
  | .hbm, ⟨58, _⟩ => ⟨S512x512, .i32⟩
  | .hbm, ⟨59, _⟩ => ⟨S512x512x1, .i32⟩
  | .hbm, ⟨60, _⟩ => ⟨S512x512x1, .i32⟩
  | .hbm, ⟨61, _⟩ => ⟨S512x512x2, .i32⟩
  | .hbm, ⟨62, _⟩ => ⟨S512x512x75, .f32⟩
  | .hbm, ⟨63, _⟩ => ⟨S512x75x512, .f32⟩
  | .hbm, ⟨64, _⟩ => ⟨S512x1, .i32⟩
  | .hbm, ⟨65, _⟩ => ⟨S1x512, .i32⟩
  | .hbm, ⟨66, _⟩ => ⟨S_, .i32⟩
  | .hbm, ⟨67, _⟩ => ⟨S512x1, .i32⟩
  | .hbm, ⟨68, _⟩ => ⟨S512x1, .i1⟩
  | .hbm, ⟨69, _⟩ => ⟨S_, .i32⟩
  | .hbm, ⟨70, _⟩ => ⟨S512x1, .i32⟩
  | .hbm, ⟨71, _⟩ => ⟨S512x1, .i32⟩
  | .hbm, ⟨72, _⟩ => ⟨S512x1, .i32⟩
  | .hbm, ⟨73, _⟩ => ⟨S_, .i32⟩
  | .hbm, ⟨74, _⟩ => ⟨S1x512, .i32⟩
  | .hbm, ⟨75, _⟩ => ⟨S1x512, .i1⟩
  | .hbm, ⟨76, _⟩ => ⟨S_, .i32⟩
  | .hbm, ⟨77, _⟩ => ⟨S1x512, .i32⟩
  | .hbm, ⟨78, _⟩ => ⟨S1x512, .i32⟩
  | .hbm, ⟨79, _⟩ => ⟨S1x512, .i32⟩
  | .hbm, ⟨80, _⟩ => ⟨S512x512, .i32⟩
  | .hbm, ⟨81, _⟩ => ⟨S512x512, .i32⟩
  | .hbm, ⟨82, _⟩ => ⟨S512x512x1, .i32⟩
  | .hbm, ⟨83, _⟩ => ⟨S512x512x1, .i32⟩
  | .hbm, ⟨84, _⟩ => ⟨S512x512x2, .i32⟩
  | .hbm, ⟨85, _⟩ => ⟨S512x512, .f32⟩
  | .hbm, ⟨86, _⟩ => ⟨S512x1, .f32⟩
  | .hbm, ⟨87, _⟩ => ⟨S1x512, .f32⟩
  | .hbm, ⟨88, _⟩ => ⟨S512x1, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .local _ .vmem, ⟨0, _⟩ => ⟨S32x3, .f32⟩
  | .local _ .vmem, ⟨1, _⟩ => ⟨S32x3, .f32⟩
  | .local _ .vmem, ⟨2, _⟩ => ⟨S3x128, .f32⟩
  | .local _ .vmem, ⟨3, _⟩ => ⟨S3x128, .f32⟩
  | .local _ .vmem, ⟨4, _⟩ => ⟨S27x3, .f32⟩
  | .local _ .vmem, ⟨5, _⟩ => ⟨S32x1, .f32⟩
  | .local _ .vmem, ⟨6, _⟩ => ⟨S32x1, .f32⟩
  | .local _ .vmem, ⟨7, _⟩ => ⟨S1x128, .f32⟩
  | .local _ .vmem, ⟨8, _⟩ => ⟨S1x128, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | .local _ .vmem, ⟨12, _⟩ => ⟨S32x3, .f32⟩
  | .local _ .vmem, ⟨13, _⟩ => ⟨S32x3, .f32⟩
  | .local _ .vmem, ⟨14, _⟩ => ⟨S3x128, .f32⟩
  | .local _ .vmem, ⟨15, _⟩ => ⟨S3x128, .f32⟩
  | .local _ .vmem, ⟨16, _⟩ => ⟨S27x3, .f32⟩
  | .local _ .vmem, ⟨17, _⟩ => ⟨S32x1, .f32⟩
  | .local _ .vmem, ⟨18, _⟩ => ⟨S32x1, .f32⟩
  | .local _ .vmem, ⟨19, _⟩ => ⟨S1x128, .f32⟩
  | .local _ .vmem, ⟨20, _⟩ => ⟨S1x128, .f32⟩
  | .local _ .vmem, ⟨21, _⟩ => ⟨S32x75x128, .f32⟩
  | .local _ .vmem, ⟨22, _⟩ => ⟨S32x75x128, .f32⟩
  | .local _ .vmem, ⟨23, _⟩ => ⟨S32x128, .f32⟩
  | .local _ .vmem, ⟨24, _⟩ => ⟨S32x128, .f32⟩
  | .local _ .vmem, ⟨25, _⟩ => ⟨S32x1, .f32⟩
  | .local _ .vmem, ⟨26, _⟩ => ⟨S32x1, .f32⟩
  | .local _ .vmem, ⟨27, _⟩ => ⟨S1x128, .f32⟩
  | .local _ .vmem, ⟨28, _⟩ => ⟨S1x128, .f32⟩
  | .local _ .vmem, ⟨29, _⟩ => ⟨S32x1, .f32⟩
  | .local _ .vmem, ⟨30, _⟩ => ⟨S32x1, .f32⟩
  | .local _ .vmem, ⟨31, _⟩ => ⟨S32x1, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v88 : BitVec 1 := Scalar.cmpi .eq arg1 c3_i32
  let v89 : BitVec 32 := Scalar.extui v88
  let c0_i32_23 : BitVec 32 := 0#32
  let v90 : BitVec 1 := Scalar.cmpi .ne v89 c0_i32_23
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S27x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v170 : BitVec 1 := Scalar.cmpi .eq arg1 c3_i32
  let v171 : BitVec 32 := Scalar.extui v170
  let c0_i32_50 : BitVec 32 := 0#32
  let v172 : BitVec 1 := Scalar.cmpi .ne v171 c0_i32_50
  v172

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S3x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S27x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S32x75x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S32x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S32x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S32x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

class Facts₀ : Prop where
  bcast_S_S512x3 : S_.BroadcastsInDim S512x3 (![] : Fin 0 → Fin S512x3.rank)
  transposes_S512x3_S3x512_1_0 : S512x3.Transposes [1, 0] S3x512
  bcast_S_S3x3 : S_.BroadcastsInDim S3x3 (![] : Fin 0 → Fin S3x3.rank)
  bcast_S_S512 : S_.BroadcastsInDim S512 (![] : Fin 0 → Fin S512.rank)
  bcast_S512_S512x1_0 : S512.BroadcastsInDim S512x1 (![0] : Fin 1 → Fin S512x1.rank)
  shapeCasts_S512_S512x1 : S512.ShapeCasts S512x1
  shapeCasts_S512_S1x512 : S512.ShapeCasts S1x512
  transposes_S95x95x5x5x3_S95x95x3x5x5_0_1_4_2_3 : S95x95x5x5x3.Transposes [0, 1, 4, 2, 3] S95x95x3x5x5
  shapeCasts_S95x95x3x5x5_S95x95x75 : S95x95x3x5x5.ShapeCasts S95x95x75
  bcast_S512_S1x512_1 : S512.BroadcastsInDim S1x512 (![1] : Fin 1 → Fin S1x512.rank)
  bcast_S_S512x1 : S_.BroadcastsInDim S512x1 (![] : Fin 0 → Fin S512x1.rank)
  bcast_S_S1x512 : S_.BroadcastsInDim S1x512 (![] : Fin 0 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  transposes_S512x512x75_S512x75x512_0_2_1 : S512x512x75.Transposes [0, 2, 1] S512x75x512
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x3_S32x3_0_0 : ∀ a, (![0, 0] : Fin 2 → Nat) a + S32x3.size a ≤ S32x3.size a
  h_S32x3 : 0 < S32x3.numel
  shapeCasts_S32x3_S32x3 : S32x3.ShapeCasts S32x3
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S27x3_S27x3_0_0 : ∀ a, (![0, 0] : Fin 2 → Nat) a + S27x3.size a ≤ S27x3.size a
  h_S27x3 : 0 < S27x3.numel
  shapeCasts_S27x3_S27x3 : S27x3.ShapeCasts S27x3
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S32x3_o0_0_S32x1 : S32x3.Slices ![0, 0] S32x1
  shapeCasts_S32x1_S32x1x1 : S32x1.ShapeCasts S32x1x1
  slices_S32x3_o0_1_S32x1 : S32x3.Slices ![0, 1] S32x1
  slices_S32x3_o0_2_S32x1 : S32x3.Slices ![0, 2] S32x1
  slices_S3x128_o0_0_S1x128 : S3x128.Slices ![0, 0] S1x128
  shapeCasts_S1x128_S1x1x128 : S1x128.ShapeCasts S1x1x128
  slices_S3x128_o1_0_S1x128 : S3x128.Slices ![1, 0] S1x128
  slices_S3x128_o2_0_S1x128 : S3x128.Slices ![2, 0] S1x128
  slices_S27x3_o0_0_S27x1 : S27x3.Slices ![0, 0] S27x1
  shapeCasts_S27x1_S1x27x1 : S27x1.ShapeCasts S1x27x1
  slices_S27x3_o0_1_S27x1 : S27x3.Slices ![0, 1] S27x1
  slices_S27x3_o0_2_S27x1 : S27x3.Slices ![0, 2] S27x1
  broadcasts_S1x1x128_S32x1x128 : S1x1x128.Broadcasts S32x1x128
  broadcasts_S32x1x1_S32x1x128 : S32x1x1.Broadcasts S32x1x128
  broadcasts_S32x1x128_S32x27x128 : S32x1x128.Broadcasts S32x27x128
  broadcasts_S1x27x1_S32x27x128 : S1x27x1.Broadcasts S32x27x128
  reduces_S32x27x128_S32x128 : S32x27x128.Reduces [1] S32x128
  reduces_S32x128_S32 : S32x128.Reduces [1] S32
  shapeCasts_S32_S32x1 : S32.ShapeCasts S32x1
  shapeCasts_S512x1_S1x512 : S512x1.ShapeCasts S1x512
  inb_S32x75x128_S32x75x128_0_0_0 : ∀ a, (![0, 0, 0] : Fin 3 → Nat) a + S32x75x128.size a ≤ S32x75x128.size a
  h_S32x75x128 : 0 < S32x75x128.numel
  shapeCasts_S32x75x128_S32x75x128 : S32x75x128.ShapeCasts S32x75x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  slices_S32x75x128_o0_0_0_S32x25x128 : S32x75x128.Slices ![0, 0, 0] S32x25x128
  slices_S32x75x128_o0_25_0_S32x25x128 : S32x75x128.Slices ![0, 25, 0] S32x25x128
  slices_S32x75x128_o0_50_0_S32x25x128 : S32x75x128.Slices ![0, 50, 0] S32x25x128
  broadcasts_S32x1x1_S32x25x128 : S32x1x1.Broadcasts S32x25x128
  broadcasts_S1x1x128_S32x25x128 : S1x1x128.Broadcasts S32x25x128
  reduces_S32x25x128_S32x128 : S32x25x128.Reduces [1] S32x128
  shapeCasts_S32x128_S32x1x128 : S32x128.ShapeCasts S32x1x128
  broadcasts_S32x1x128_S32x25x128 : S32x1x128.Broadcasts S32x25x128
  reducesTo_S512x1_S_d0_1 : S512x1.ReducesTo [0, 1] S_
  h_S_ : 0 < S_.numel
  dot_S27x3_S3x3_S27x3_1_0_0_1_n_n_wf : DotDims.WF S27x3 S3x3 S27x3 [1] [0] [0] [1] [] []
  gather_S95_S512x1_S512_n_0_n_n_0_1_1_wf : GatherDims.WF S95 S512x1 S512 [] [0] [] [0] [] 1 ![1]
  gather_S95x95x75_S512x512x2_S512x512x75_2_01_n_n_01_2_1175_wf : GatherDims.WF S95x95x75 S512x512x2 S512x512x75 [2] [0, 1] [] [0, 1] [] 2 ![1, 1, 75]
  gather_S95x95_S512x512x2_S512x512_n_01_n_n_01_2_11_wf : GatherDims.WF S95x95 S512x512x2 S512x512 [] [0, 1] [] [0, 1] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3.size a ≤ S512x3.size a
  hwx0_0 : ∀ i : grid0.Coords, EltTy.bits .f32 = 32 ∨ (Rect.block (s := S512x3) S32x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x512.size a
  hwx0_1 : ∀ i : grid0.Coords, EltTy.bits .f32 = 32 ∨ (Rect.block (s := S3x512) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S27x3.size a ≤ S27x3.size a
  hwx0_2 : ∀ i : grid0.Coords, EltTy.bits .f32 = 32 ∨ (Rect.block (s := S27x3) S27x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S512x1.size a
  hwx0_3 : ∀ i : grid0.Coords, EltTy.bits .f32 = 32 ∨ (Rect.block (s := S512x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x512.size a
  hwx0_4 : ∀ i : grid0.Coords, EltTy.bits .f32 = 32 ∨ (Rect.block (s := S1x512) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S512x1.size a
  hwx0_5 : ∀ i : grid0.Coords, EltTy.bits .f32 = 32 ∨ (Rect.block (s := S512x1) S32x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x3.size a ≤ S512x3.size a
  hwx1_0 : ∀ i : grid1.Coords, EltTy.bits .f32 = 32 ∨ (Rect.block (s := S512x3) S32x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x128.size a ≤ S3x512.size a
  hwx1_1 : ∀ i : grid1.Coords, EltTy.bits .f32 = 32 ∨ (Rect.block (s := S3x512) S3x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S27x3.size a ≤ S27x3.size a
  hwx1_2 : ∀ i : grid1.Coords, EltTy.bits .f32 = 32 ∨ (Rect.block (s := S27x3) S27x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S512x1.size a
  hwx1_3 : ∀ i : grid1.Coords, EltTy.bits .f32 = 32 ∨ (Rect.block (s := S512x1) S32x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x512.size a
  hwx1_4 : ∀ i : grid1.Coords, EltTy.bits .f32 = 32 ∨ (Rect.block (s := S1x512) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x75x128.size a ≤ S512x75x512.size a
  hwx1_5 : ∀ i : grid1.Coords, EltTy.bits .f32 = 32 ∨ (Rect.block (s := S512x75x512) S32x75x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x128.size a ≤ S512x512.size a
  hwx1_6 : ∀ i : grid1.Coords, EltTy.bits .f32 = 32 ∨ (Rect.block (s := S512x512) S32x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S512x1.size a
  hwx1_7 : ∀ i : grid1.Coords, EltTy.bits .f32 = 32 ∨ (Rect.block (s := S512x1) S32x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x512.size a
  hwx1_8 : ∀ i : grid1.Coords, EltTy.bits .f32 = 32 ∨ (Rect.block (s := S1x512) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S32x1.size a ≤ S512x1.size a
  hwx1_9 : ∀ i : grid1.Coords, EltTy.bits .f32 = 32 ∨ (Rect.block (s := S512x1) S32x1.size (cc1_transform_9 i) (hinb1_9 i)).WholeWords (EltTy.packing .f32)

variable [Facts₀]

def dot_S27x3_S3x3_S27x3_1_0_0_1_n_n : DotDims S27x3 S3x3 S27x3 where
  lhsContracting := [1]
  rhsContracting := [0]
  lhsNonContracting := [0]
  rhsNonContracting := [1]
  lhsBatch := []
  rhsBatch := []
  wf := dot_S27x3_S3x3_S27x3_1_0_0_1_n_n_wf
def gather_S95_S512x1_S512_n_0_n_n_0_1_1 : GatherDims S95 S512x1 S512 where
  offsetDims := []
  collapsedSliceDims := [0]
  operandBatchingDims := []
  startIndicesBatchingDims := []
  startIndexMap := [0]
  indexVectorDim := 1
  sliceSizes := ![1]
  wf := gather_S95_S512x1_S512_n_0_n_n_0_1_1_wf
def gather_S95x95x75_S512x512x2_S512x512x75_2_01_n_n_01_2_1175 : GatherDims S95x95x75 S512x512x2 S512x512x75 where
  offsetDims := [2]
  collapsedSliceDims := [0, 1]
  operandBatchingDims := []
  startIndicesBatchingDims := []
  startIndexMap := [0, 1]
  indexVectorDim := 2
  sliceSizes := ![1, 1, 75]
  wf := gather_S95x95x75_S512x512x2_S512x512x75_2_01_n_n_01_2_1175_wf
def gather_S95x95_S512x512x2_S512x512_n_01_n_n_01_2_11 : GatherDims S95x95 S512x512x2 S512x512 where
  offsetDims := []
  collapsedSliceDims := [0, 1]
  operandBatchingDims := []
  startIndicesBatchingDims := []
  startIndexMap := [0, 1]
  indexVectorDim := 2
  sliceSizes := ![1, 1]
  wf := gather_S95x95_S512x512x2_S512x512_n_01_n_n_01_2_11_wf

abbrev win0_0 : Pipeline.Window sig grid0 :=
  Pipeline.Window.ofSpec (Memref.whole main_v1) S32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S27x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v64) S32x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v1) S32x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S3x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S27x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S32x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45) S32x75x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v63) S32x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v23) S32x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v66) S32x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

class Facts : Prop extends Facts₀ where

variable [Facts]
-- ==== ReferenceIdeal.lean ====
abbrev S512 : Shape := ⟨1, ![512]⟩
abbrev S512x3 : Shape := ⟨2, ![512, 3]⟩
abbrev S27x3 : Shape := ⟨2, ![27, 3]⟩
abbrev S3x3 : Shape := ⟨2, ![3, 3]⟩
abbrev S95x95x5x5x3 : Shape := ⟨5, ![95, 95, 5, 5, 3]⟩
abbrev S95x95 : Shape := ⟨2, ![95, 95]⟩
abbrev S95 : Shape := ⟨1, ![95]⟩
abbrev S_ : Shape := ⟨0, ![]⟩
abbrev S1x512x1x3 : Shape := ⟨4, ![1, 512, 1, 3]⟩
abbrev S512x1x1x3 : Shape := ⟨4, ![512, 1, 1, 3]⟩
abbrev S512x512x1x3 : Shape := ⟨4, ![512, 512, 1, 3]⟩
abbrev S1x1x27x3 : Shape := ⟨4, ![1, 1, 27, 3]⟩
abbrev S512x512x27x3 : Shape := ⟨4, ![512, 512, 27, 3]⟩
abbrev S512x512x27 : Shape := ⟨3, ![512, 512, 27]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S512x512x2 : Shape := ⟨3, ![512, 512, 2]⟩
abbrev S512x512x5x5x3 : Shape := ⟨5, ![512, 512, 5, 5, 3]⟩
abbrev S512x512x5x5x1 : Shape := ⟨5, ![512, 512, 5, 5, 1]⟩
abbrev S512x512x5x5 : Shape := ⟨4, ![512, 512, 5, 5]⟩
abbrev S512x1x1x1 : Shape := ⟨4, ![512, 1, 1, 1]⟩
abbrev S1x512x1x1 : Shape := ⟨4, ![1, 512, 1, 1]⟩
abbrev S512x512x1x1 : Shape := ⟨4, ![512, 512, 1, 1]⟩

abbrev nBuf : Space → Nat
  | .hbm => 252
  | .vmem => 0
  | .smem => 0
  | _ => 0

abbrev hbmTy0_0 (i : Nat) : BufTy := match i % 128 with
  | 0 => ⟨S512, .i32⟩
  | 1 => ⟨S512x3, .f32⟩
  | 2 => ⟨S27x3, .i32⟩
  | 3 => ⟨S3x3, .f32⟩
  | 4 => ⟨S95x95x5x5x3, .f32⟩
  | 5 => ⟨S95x95, .f32⟩
  | 6 => ⟨S95, .f32⟩
  | 7 => ⟨S95, .f32⟩
  | 8 => ⟨S_, .f32⟩
  | 9 => ⟨S512x3, .f32⟩
  | 10 => ⟨S512x3, .f32⟩
  | 11 => ⟨S_, .f32⟩
  | 12 => ⟨S3x3, .f32⟩
  | 13 => ⟨S3x3, .f32⟩
  | 14 => ⟨S27x3, .f32⟩
  | 15 => ⟨S27x3, .f32⟩
  | 16 => ⟨S1x512x1x3, .f32⟩
  | 17 => ⟨S512x1x1x3, .f32⟩
  | 18 => ⟨S512x512x1x3, .f32⟩
  | 19 => ⟨S512x512x1x3, .f32⟩
  | 20 => ⟨S512x512x1x3, .f32⟩
  | 21 => ⟨S1x1x27x3, .f32⟩
  | 22 => ⟨S512x512x27x3, .f32⟩
  | 23 => ⟨S512x512x27x3, .f32⟩
  | 24 => ⟨S512x512x27x3, .f32⟩
  | 25 => ⟨S512x512x27x3, .f32⟩
  | 26 => ⟨S_, .f32⟩
  | 27 => ⟨S512x512x27, .f32⟩
  | 28 => ⟨S_, .f32⟩
  | 29 => ⟨S512x512x27, .f32⟩
  | 30 => ⟨S512x512x27, .i1⟩
  | 31 => ⟨S_, .f32⟩
  | 32 => ⟨S_, .f32⟩
  | 33 => ⟨S512x512x27, .f32⟩
  | 34 => ⟨S512x512x27, .f32⟩
  | 35 => ⟨S512x512x27, .f32⟩
  | 36 => ⟨S_, .f32⟩
  | 37 => ⟨S512x512x27, .f32⟩
  | 38 => ⟨S512x512x27, .i1⟩
  | 39 => ⟨S512x512x27, .i1⟩
  | 40 => ⟨S_, .i32⟩
  | 41 => ⟨S512, .i32⟩
  | 42 => ⟨S512, .i1⟩
  | 43 => ⟨S_, .i32⟩
  | 44 => ⟨S512, .i32⟩
  | 45 => ⟨S512, .i32⟩
  | 46 => ⟨S512, .i32⟩
  | 47 => ⟨S512x1, .i32⟩
  | 48 => ⟨S512, .f32⟩
  | 49 => ⟨S512x1, .f32⟩
  | 50 => ⟨S1x512, .f32⟩
  | 51 => ⟨S512x512, .f32⟩
  | 52 => ⟨S512x512, .f32⟩
  | 53 => ⟨S512x512, .f32⟩
  | 54 => ⟨S512x512x1, .f32⟩
  | 55 => ⟨S512x512x27, .f32⟩
  | 56 => ⟨S512x512x27, .f32⟩
  | 57 => ⟨S_, .f32⟩
  | 58 => ⟨S512x512x27, .f32⟩
  | 59 => ⟨S512x512x27, .f32⟩
  | 60 => ⟨S_, .f32⟩
  | 61 => ⟨S512x512x27, .f32⟩
  | 62 => ⟨S512x512x27, .f32⟩
  | 63 => ⟨S512x512x27, .f32⟩
  | 64 => ⟨S_, .f32⟩
  | 65 => ⟨S512x512x27, .f32⟩
  | 66 => ⟨S512x512x27, .f32⟩
  | 67 => ⟨S_, .f32⟩
  | 68 => ⟨S512x512x27, .f32⟩
  | 69 => ⟨S512x512x27, .f32⟩
  | 70 => ⟨S_, .f32⟩
  | 71 => ⟨S512x512x27, .f32⟩
  | 72 => ⟨S512x512x27, .i1⟩
  | 73 => ⟨S512x512x27, .i1⟩
  | 74 => ⟨S_, .f32⟩
  | 75 => ⟨S_, .f32⟩
  | 76 => ⟨S512x512x27, .f32⟩
  | 77 => ⟨S512x512x27, .f32⟩
  | 78 => ⟨S_, .f32⟩
  | 79 => ⟨S512, .f32⟩
  | 80 => ⟨S512x1, .i32⟩
  | 81 => ⟨S1x512, .i32⟩
  | 82 => ⟨S_, .i32⟩
  | 83 => ⟨S512x1, .i32⟩
  | 84 => ⟨S512x1, .i1⟩
  | 85 => ⟨S_, .i32⟩
  | 86 => ⟨S512x1, .i32⟩
  | 87 => ⟨S512x1, .i32⟩
  | 88 => ⟨S512x1, .i32⟩
  | 89 => ⟨S_, .i32⟩
  | 90 => ⟨S1x512, .i32⟩
  | 91 => ⟨S1x512, .i1⟩
  | 92 => ⟨S_, .i32⟩
  | 93 => ⟨S1x512, .i32⟩
  | 94 => ⟨S1x512, .i32⟩
  | 95 => ⟨S1x512, .i32⟩
  | 96 => ⟨S512x512, .i32⟩
  | 97 => ⟨S512x512, .i32⟩
  | 98 => ⟨S512x512x1, .i32⟩
  | 99 => ⟨S512x512x1, .i32⟩
  | 100 => ⟨S512x512x2, .i32⟩
  | 101 => ⟨S512x512x5x5x3, .f32⟩
  | 102 => ⟨S512x512x5x5x1, .f32⟩
  | 103 => ⟨S512x512x5x5, .f32⟩
  | 104 => ⟨S_, .f32⟩
  | 105 => ⟨S512x512x5x5, .f32⟩
  | 106 => ⟨S512x512x5x5, .i1⟩
  | 107 => ⟨S512x1x1x1, .f32⟩
  | 108 => ⟨S512x512x5x5x1, .f32⟩
  | 109 => ⟨S512x512x5x5, .f32⟩
  | 110 => ⟨S512x512x5x5, .f32⟩
  | 111 => ⟨S512x512x5x5, .f32⟩
  | 112 => ⟨S512x512x5x5, .f32⟩
  | 113 => ⟨S1x512x1x1, .f32⟩
  | 114 => ⟨S512x512x5x5x1, .f32⟩
  | 115 => ⟨S512x512x5x5, .f32⟩
  | 116 => ⟨S512x512x5x5, .f32⟩
  | 117 => ⟨S512x512x5x5, .f32⟩
  | 118 => ⟨S512x512x5x5, .f32⟩
  | 119 => ⟨S512x512x5x5, .f32⟩
  | 120 => ⟨S_, .f32⟩
  | 121 => ⟨S_, .f32⟩
  | 122 => ⟨S512x512x5x5, .f32⟩
  | 123 => ⟨S512x512x5x5, .f32⟩
  | 124 => ⟨S_, .f32⟩
  | 125 => ⟨S512x512, .f32⟩
  | 126 => ⟨S512x512x1x1, .f32⟩
  | 127 => ⟨S512x512x5x5, .f32⟩
  | _ => ⟨S512, .i32⟩

abbrev hbmTy0_1 (i : Nat) : BufTy := match i % 128 with
  | 0 => ⟨S512x512x5x5, .f32⟩
  | 1 => ⟨S_, .f32⟩
  | 2 => ⟨S512x512x5x5, .f32⟩
  | 3 => ⟨S512x512x5x5, .f32⟩
  | 4 => ⟨S512x512x5x5, .f32⟩
  | 5 => ⟨S_, .f32⟩
  | 6 => ⟨S_, .f32⟩
  | 7 => ⟨S512x512x5x5, .f32⟩
  | 8 => ⟨S512x512x5x5, .f32⟩
  | 9 => ⟨S512x512x5x5, .f32⟩
  | 10 => ⟨S_, .f32⟩
  | 11 => ⟨S512x512, .f32⟩
  | 12 => ⟨S_, .f32⟩
  | 13 => ⟨S512x512, .f32⟩
  | 14 => ⟨S_, .f32⟩
  | 15 => ⟨S512x512, .f32⟩
  | 16 => ⟨S512x512, .f32⟩
  | 17 => ⟨S512x512, .f32⟩
  | 18 => ⟨S_, .i32⟩
  | 19 => ⟨S512, .i32⟩
  | 20 => ⟨S512, .i1⟩
  | 21 => ⟨S_, .i32⟩
  | 22 => ⟨S512, .i32⟩
  | 23 => ⟨S512, .i32⟩
  | 24 => ⟨S512, .i32⟩
  | 25 => ⟨S512x1, .i32⟩
  | 26 => ⟨S512, .f32⟩
  | 27 => ⟨S_, .f32⟩
  | 28 => ⟨S512x512, .f32⟩
  | 29 => ⟨S512x512, .f32⟩
  | 30 => ⟨S512x1, .f32⟩
  | 31 => ⟨S512x512, .f32⟩
  | 32 => ⟨S512x512, .f32⟩
  | 33 => ⟨S1x512, .f32⟩
  | 34 => ⟨S512x512, .f32⟩
  | 35 => ⟨S512x512, .f32⟩
  | 36 => ⟨S512x1, .i32⟩
  | 37 => ⟨S1x512, .i32⟩
  | 38 => ⟨S_, .i32⟩
  | 39 => ⟨S512x1, .i32⟩
  | 40 => ⟨S512x1, .i1⟩
  | 41 => ⟨S_, .i32⟩
  | 42 => ⟨S512x1, .i32⟩
  | 43 => ⟨S512x1, .i32⟩
  | 44 => ⟨S512x1, .i32⟩
  | 45 => ⟨S_, .i32⟩
  | 46 => ⟨S1x512, .i32⟩
  | 47 => ⟨S1x512, .i1⟩
  | 48 => ⟨S_, .i32⟩
  | 49 => ⟨S1x512, .i32⟩
  | 50 => ⟨S1x512, .i32⟩
  | 51 => ⟨S1x512, .i32⟩
  | 52 => ⟨S512x512, .i32⟩
  | 53 => ⟨S512x512, .i32⟩
  | 54 => ⟨S512x512x1, .i32⟩
  | 55 => ⟨S512x512x1, .i32⟩
  | 56 => ⟨S512x512x2, .i32⟩
  | 57 => ⟨S512x512, .f32⟩
  | 58 => ⟨S512x512x27, .f32⟩
  | 59 => ⟨S512x512x27, .f32⟩
  | 60 => ⟨S_, .f32⟩
  | 61 => ⟨S_, .f32⟩
  | 62 => ⟨S512x512x27, .f32⟩
  | 63 => ⟨S512x512x27, .f32⟩
  | 64 => ⟨S_, .f32⟩
  | 65 => ⟨S_, .f32⟩
  | 66 => ⟨S512x512x27, .f32⟩
  | 67 => ⟨S512x512x27, .f32⟩
  | 68 => ⟨S512x512x27, .f32⟩
  | 69 => ⟨S512x512x1, .f32⟩
  | 70 => ⟨S_, .f32⟩
  | 71 => ⟨S512x512x1, .f32⟩
  | 72 => ⟨S512x512x1, .f32⟩
  | 73 => ⟨S512x512x27, .f32⟩
  | 74 => ⟨S512x512x27, .f32⟩
  | 75 => ⟨S_, .f32⟩
  | 76 => ⟨S512x512x27, .f32⟩
  | 77 => ⟨S512x512x27, .f32⟩
  | 78 => ⟨S512x512x1, .f32⟩
  | 79 => ⟨S_, .f32⟩
  | 80 => ⟨S512x512x1, .f32⟩
  | 81 => ⟨S512x512x1, .f32⟩
  | 82 => ⟨S512x512x27, .f32⟩
  | 83 => ⟨S512x512x27, .f32⟩
  | 84 => ⟨S_, .f32⟩
  | 85 => ⟨S512x512x27, .f32⟩
  | 86 => ⟨S512x512x27, .f32⟩
  | 87 => ⟨S512x512x1, .f32⟩
  | 88 => ⟨S_, .f32⟩
  | 89 => ⟨S512x512x1, .f32⟩
  | 90 => ⟨S512x512x1, .f32⟩
  | 91 => ⟨S512x512x27, .f32⟩
  | 92 => ⟨S512x512x27, .f32⟩
  | 93 => ⟨S_, .f32⟩
  | 94 => ⟨S512x512x27, .f32⟩
  | 95 => ⟨S512x512x27, .f32⟩
  | 96 => ⟨S_, .f32⟩
  | 97 => ⟨S512x512x27, .f32⟩
  | 98 => ⟨S512x512x27, .f32⟩
  | 99 => ⟨S512x512x27, .f32⟩
  | 100 => ⟨S512x512x1, .f32⟩
  | 101 => ⟨S_, .f32⟩
  | 102 => ⟨S512x512x1, .f32⟩
  | 103 => ⟨S512x512x1, .f32⟩
  | 104 => ⟨S512x512x27, .f32⟩
  | 105 => ⟨S512x512x27, .f32⟩
  | 106 => ⟨S_, .f32⟩
  | 107 => ⟨S512x512x27, .f32⟩
  | 108 => ⟨S512x512x27, .f32⟩
  | 109 => ⟨S_, .f32⟩
  | 110 => ⟨S512x512x27, .f32⟩
  | 111 => ⟨S512x512x27, .f32⟩
  | 112 => ⟨S512x512x27, .f32⟩
  | 113 => ⟨S512x512x27, .f32⟩
  | 114 => ⟨S_, .f32⟩
  | 115 => ⟨S_, .f32⟩
  | 116 => ⟨S512x512x27, .f32⟩
  | 117 => ⟨S512x512x27, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | _ => ⟨S512, .i32⟩

abbrev hbmTy (i : Nat) : BufTy := match i / 128 with
  | 0 => hbmTy0_0 i
  | 1 => hbmTy0_1 i
  | _ => ⟨S512, .i32⟩

abbrev bufTy : (tb : Table) → Fin (tcTables nBuf tb) → BufTy
  | .hbm, ⟨i, _⟩ => hbmTy i
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_c_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_18 : Ref sig .tc := ⟨.hbm, 120, rfl⟩
abbrev main_call2_v0 : Ref sig .tc := ⟨.hbm, 121, rfl⟩
abbrev main_call2_v1 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_21 : Ref sig .tc := ⟨.hbm, 133, rfl⟩
abbrev main_call3_v0 : Ref sig .tc := ⟨.hbm, 134, rfl⟩
abbrev main_call3_v1 : Ref sig .tc := ⟨.hbm, 135, rfl⟩
abbrev main_v96 : Ref sig .tc := ⟨.hbm, 136, rfl⟩
abbrev main_v97 : Ref sig .tc := ⟨.hbm, 137, rfl⟩
abbrev main_cst_22 : Ref sig .tc := ⟨.hbm, 138, rfl⟩
abbrev main_v98 : Ref sig .tc := ⟨.hbm, 139, rfl⟩
abbrev main_cst_23 : Ref sig .tc := ⟨.hbm, 140, rfl⟩
abbrev main_v99 : Ref sig .tc := ⟨.hbm, 141, rfl⟩
abbrev main_cst_24 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_25 : Ref sig .tc := ⟨.hbm, 146, rfl⟩
abbrev main_v103 : Ref sig .tc := ⟨.hbm, 147, rfl⟩
abbrev main_v104 : Ref sig .tc := ⟨.hbm, 148, rfl⟩
abbrev main_c_26 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_27 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_28 : Ref sig .tc := ⟨.hbm, 166, rfl⟩
abbrev main_v120 : Ref sig .tc := ⟨.hbm, 167, rfl⟩
abbrev main_v121 : Ref sig .tc := ⟨.hbm, 168, rfl⟩
abbrev main_c_29 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_c_30 : Ref sig .tc := ⟨.hbm, 173, rfl⟩
abbrev main_v125 : Ref sig .tc := ⟨.hbm, 174, rfl⟩
abbrev main_v126 : Ref sig .tc := ⟨.hbm, 175, rfl⟩
abbrev main_c_31 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_32 : Ref sig .tc := ⟨.hbm, 188, rfl⟩
abbrev main_call4_v0 : Ref sig .tc := ⟨.hbm, 189, rfl⟩
abbrev main_call4_v1 : Ref sig .tc := ⟨.hbm, 190, rfl⟩
abbrev main_v138 : Ref sig .tc := ⟨.hbm, 191, rfl⟩
abbrev main_cst_33 : Ref sig .tc := ⟨.hbm, 192, rfl⟩
abbrev main_call5_v0 : Ref sig .tc := ⟨.hbm, 193, rfl⟩
abbrev main_call5_v1 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_cst_34 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_35 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_36 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_37 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_38 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_39 : Ref sig .tc := ⟨.hbm, 221, rfl⟩
abbrev main_v160 : Ref sig .tc := ⟨.hbm, 222, rfl⟩
abbrev main_v161 : Ref sig .tc := ⟨.hbm, 223, rfl⟩
abbrev main_cst_40 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_cst_41 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_cst_42 : Ref sig .tc := ⟨.hbm, 234, rfl⟩
abbrev main_v170 : Ref sig .tc := ⟨.hbm, 235, rfl⟩
abbrev main_v171 : Ref sig .tc := ⟨.hbm, 236, rfl⟩
abbrev main_cst_43 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_44 : Ref sig .tc := ⟨.hbm, 242, rfl⟩
abbrev main_call6_v0 : Ref sig .tc := ⟨.hbm, 243, rfl⟩
abbrev main_call6_v1 : Ref sig .tc := ⟨.hbm, 244, rfl⟩
abbrev main_v176 : Ref sig .tc := ⟨.hbm, 245, rfl⟩
abbrev main_cst_45 : Ref sig .tc := ⟨.hbm, 246, rfl⟩
abbrev main_v177 : Ref sig .tc := ⟨.hbm, 247, rfl⟩
abbrev main_cst_46 : Ref sig .tc := ⟨.hbm, 248, rfl⟩
abbrev main_v178 : Ref sig .tc := ⟨.hbm, 249, rfl⟩
abbrev main_cst_47 : Ref sig .tc := ⟨.hbm, 250, rfl⟩
abbrev main_v179 : Ref sig .tc := ⟨.hbm, 251, rfl⟩

abbrev nD : Nat := 1
abbrev τ : Topo := Topo.v7x

variable {F : FTy → Type} [FloatOps F]

class Facts₀ : Prop where
  bcast_S_S512x3 : S_.BroadcastsInDim S512x3 (![] : Fin 0 → Fin S512x3.rank)
  bcast_S_S3x3 : S_.BroadcastsInDim S3x3 (![] : Fin 0 → Fin S3x3.rank)
  bcast_S512x3_S1x512x1x3_1_3 : S512x3.BroadcastsInDim S1x512x1x3 (![1, 3] : Fin 2 → Fin S1x512x1x3.rank)
  bcast_S512x3_S512x1x1x3_0_3 : S512x3.BroadcastsInDim S512x1x1x3 (![0, 3] : Fin 2 → Fin S512x1x1x3.rank)
  bcast_S1x512x1x3_S512x512x1x3_0_1_2_3 : S1x512x1x3.BroadcastsInDim S512x512x1x3 (![0, 1, 2, 3] : Fin 4 → Fin S512x512x1x3.rank)
  bcast_S512x1x1x3_S512x512x1x3_0_1_2_3 : S512x1x1x3.BroadcastsInDim S512x512x1x3 (![0, 1, 2, 3] : Fin 4 → Fin S512x512x1x3.rank)
  bcast_S27x3_S1x1x27x3_2_3 : S27x3.BroadcastsInDim S1x1x27x3 (![2, 3] : Fin 2 → Fin S1x1x27x3.rank)
  bcast_S512x512x1x3_S512x512x27x3_0_1_2_3 : S512x512x1x3.BroadcastsInDim S512x512x27x3 (![0, 1, 2, 3] : Fin 4 → Fin S512x512x27x3.rank)
  bcast_S1x1x27x3_S512x512x27x3_0_1_2_3 : S1x1x27x3.BroadcastsInDim S512x512x27x3 (![0, 1, 2, 3] : Fin 4 → Fin S512x512x27x3.rank)
  reducesTo_S512x512x27x3_S512x512x27_d3 : S512x512x27x3.ReducesTo [3] S512x512x27
  h_S_ : 0 < S_.numel
  bcast_S_S512x512x27 : S_.BroadcastsInDim S512x512x27 (![] : Fin 0 → Fin S512x512x27.rank)
  bcast_S_S512 : S_.BroadcastsInDim S512 (![] : Fin 0 → Fin S512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  bcast_S512x512x1_S512x512x27_0_1_2 : S512x512x1.BroadcastsInDim S512x512x27 (![0, 1, 2] : Fin 3 → Fin S512x512x27.rank)
  reducesTo_S512x512x27_S512_d1_2 : S512x512x27.ReducesTo [1, 2] S512
  bcast_S_S512x1 : S_.BroadcastsInDim S512x1 (![] : Fin 0 → Fin S512x1.rank)
  bcast_S_S1x512 : S_.BroadcastsInDim S1x512 (![] : Fin 0 → Fin S1x512.rank)
  concatenates_S512x512x1_S512x512x1_S512x512x2_d2 : Shape.Concatenates [S512x512x1, S512x512x1] S512x512x2 2
  slices_S512x512x5x5x3_S512x512x5x5x1_0_0_0_0_0 : S512x512x5x5x3.Slices ![0, 0, 0, 0, 0] S512x512x5x5x1
  shapeCasts_S512x512x5x5x1_S512x512x5x5 : S512x512x5x5x1.ShapeCasts S512x512x5x5
  bcast_S_S512x512x5x5 : S_.BroadcastsInDim S512x512x5x5 (![] : Fin 0 → Fin S512x512x5x5.rank)
  bcast_S512_S512x1x1x1_0 : S512.BroadcastsInDim S512x1x1x1 (![0] : Fin 1 → Fin S512x1x1x1.rank)
  slices_S512x512x5x5x3_S512x512x5x5x1_0_0_0_0_1 : S512x512x5x5x3.Slices ![0, 0, 0, 0, 1] S512x512x5x5x1
  bcast_S512x1x1x1_S512x512x5x5_0_1_2_3 : S512x1x1x1.BroadcastsInDim S512x512x5x5 (![0, 1, 2, 3] : Fin 4 → Fin S512x512x5x5.rank)
  bcast_S512_S1x512x1x1_1 : S512.BroadcastsInDim S1x512x1x1 (![1] : Fin 1 → Fin S1x512x1x1.rank)
  slices_S512x512x5x5x3_S512x512x5x5x1_0_0_0_0_2 : S512x512x5x5x3.Slices ![0, 0, 0, 0, 2] S512x512x5x5x1
  bcast_S1x512x1x1_S512x512x5x5_0_1_2_3 : S1x512x1x1.BroadcastsInDim S512x512x5x5 (![0, 1, 2, 3] : Fin 4 → Fin S512x512x5x5.rank)
  reducesTo_S512x512x5x5_S512x512_d2_3 : S512x512x5x5.ReducesTo [2, 3] S512x512
  bcast_S512x512_S512x512x1x1_0_1 : S512x512.BroadcastsInDim S512x512x1x1 (![0, 1] : Fin 2 → Fin S512x512x1x1.rank)
  bcast_S512x512x1x1_S512x512x5x5_0_1_2_3 : S512x512x1x1.BroadcastsInDim S512x512x5x5 (![0, 1, 2, 3] : Fin 4 → Fin S512x512x5x5.rank)
  bcast_S_S512x512 : S_.BroadcastsInDim S512x512 (![] : Fin 0 → Fin S512x512.rank)
  bcast_S_S512x512x1 : S_.BroadcastsInDim S512x512x1 (![] : Fin 0 → Fin S512x512x1.rank)
  reducesTo_S512x512x27_S_d0_1_2 : S512x512x27.ReducesTo [0, 1, 2] S_
  dot_S27x3_S3x3_S27x3_1_0_0_1_n_n_wf : DotDims.WF S27x3 S3x3 S27x3 [1] [0] [0] [1] [] []
  gather_S95_S512x1_S512_n_0_n_n_0_1_1_wf : GatherDims.WF S95 S512x1 S512 [] [0] [] [0] [] 1 ![1]
  gather_S95x95x5x5x3_S512x512x2_S512x512x5x5x3_234_01_n_n_01_2_11553_wf : GatherDims.WF S95x95x5x5x3 S512x512x2 S512x512x5x5x3 [2, 3, 4] [0, 1] [] [0, 1] [] 2 ![1, 1, 5, 5, 3]
  gather_S95x95_S512x512x2_S512x512_n_01_n_n_01_2_11_wf : GatherDims.WF S95x95 S512x512x2 S512x512 [] [0, 1] [] [0, 1] [] 2 ![1, 1]

variable [Facts₀]

def dot_S27x3_S3x3_S27x3_1_0_0_1_n_n : DotDims S27x3 S3x3 S27x3 where
  lhsContracting := [1]
  rhsContracting := [0]
  lhsNonContracting := [0]
  rhsNonContracting := [1]
  lhsBatch := []
  rhsBatch := []
  wf := dot_S27x3_S3x3_S27x3_1_0_0_1_n_n_wf
def gather_S95_S512x1_S512_n_0_n_n_0_1_1 : GatherDims S95 S512x1 S512 where
  offsetDims := []
  collapsedSliceDims := [0]
  operandBatchingDims := []
  startIndicesBatchingDims := []
  startIndexMap := [0]
  indexVectorDim := 1
  sliceSizes := ![1]
  wf := gather_S95_S512x1_S512_n_0_n_n_0_1_1_wf
def gather_S95x95x5x5x3_S512x512x2_S512x512x5x5x3_234_01_n_n_01_2_11553 : GatherDims S95x95x5x5x3 S512x512x2 S512x512x5x5x3 where
  offsetDims := [2, 3, 4]
  collapsedSliceDims := [0, 1]
  operandBatchingDims := []
  startIndicesBatchingDims := []
  startIndexMap := [0, 1]
  indexVectorDim := 2
  sliceSizes := ![1, 1, 5, 5, 3]
  wf := gather_S95x95x5x5x3_S512x512x2_S512x512x5x5x3_234_01_n_n_01_2_11553_wf
def gather_S95x95_S512x512x2_S512x512_n_01_n_n_01_2_11 : GatherDims S95x95 S512x512x2 S512x512 where
  offsetDims := []
  collapsedSliceDims := [0, 1]
  operandBatchingDims := []
  startIndicesBatchingDims := []
  startIndexMap := [0, 1]
  indexVectorDim := 2
  sliceSizes := ![1, 1]
  wf := gather_S95x95_S512x512x2_S512x512_n_01_n_n_01_2_11_wf

class Facts : Prop extends Facts₀ where

variable [Facts]
-- ==== Proof.K.R1Runs.lean ====
import proofs.«426955_j43147241456154_3_alg».proof.Proof.Gen.Kernel.Launch
import proofs.«426955_j43147241456154_3_alg».proof.Proof.Gen.Kernel.Skeleton
import proofs.«426955_j43147241456154_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array in `V` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- Decided over the grid's 64 points. -/
theorem liveAt1 : ∀ w : Fin cfg1.W, w.val < 9 → ∀ t : Fin cfg1.N, cfg1.idle w (grid1.coords t) = false := by decide +kernel
theorem idle1_9 : ∀ t : Fin cfg1.N, cfg1.idle 9 (grid1.coords t) = true ↔ ¬t.val % 4 = 3 := by decide +kernel

abbrev ms1_0 (t : Fin cfg1.N) : Memref sig .tc .vmem S32x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S27x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x75x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S32x1 .f32 := win1_9.stage (cfg1.slots t 9)
abbrev hs1_9 (t : Fin cfg1.N) : (ms1_9 t).IsWhole := hstage1_9 ((cfg1.slots t 9).cast nbuf1_9)
abbrev scM1_0 : Memref sig .tc .vmem S32x1 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

/-- The scratch is one of the scoped buffers the invariant names: split off. -/
theorem PhiA1_eq (c : Dev nD) :
    (Pipeline.ΦA spec1 c : sProp 𝕄) = iprop(((∃ d, owns (c : Thread nD τ) scM1_0 fullShare d) ∗ rest1 (F := F) c) ∗ ∃ r, prngReg c r) := by
  unfold Pipeline.ΦA; rw [Pipeline.scopedRest_split_of_list spec1 c [cc1_scratch0] (by decide) (by decide)]
  simp only [scM1_0, owns_whole]; try rfl

/-- Pieces that cover the shape determine what is read back: their canon. -/
theorem owns_canon (c : Dev nD) {sh : Shape} {e : EltTy} (m : Memref sig .tc .vmem sh e) (L : List (View.Piece (Elt F) sh e))
    (hL : ∀ y, ∃ p ∈ L, y ∈ p.1.set) :
    iprop(∃ f, m.view.loc (c : Thread nD τ) ↦[m.view.set]{fullShare} m.view.writes (Elt F) f L) ⊢ (owns (c : Thread nD τ) m fullShare (View.canon L) : sProp 𝕄) := by
  unfold owns; iintro ⟨%f, H⟩; iexists _; isplitr
  swap; · iexact H
  ipureintro; exact View.read_writes_eq_canon _ _ _ hL

end Cert.Kernel.R1

end
-- ==== Proof.K.R0Runs.lean ====
import proofs.«426955_j43147241456154_3_alg».proof.Proof.K.R1Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

/-- Decided over the grid's 64 points. -/
theorem liveAt0 : ∀ w : Fin cfg0.W, w.val < 5 → ∀ t : Fin cfg0.N, cfg0.idle w (grid0.coords t) = false := by decide +kernel
theorem idle0_5 : ∀ t : Fin cfg0.N, cfg0.idle 5 (grid0.coords t) = true ↔ ¬t.val % 4 = 3 := by decide +kernel

abbrev ms0_0 (t : Fin cfg0.N) : Memref sig .tc .vmem S32x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S27x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1 .f32 := win0_5.stage (cfg0.slots t 5)
abbrev hs0_5 (t : Fin cfg0.N) : (ms0_5 t).IsWhole := hstage0_5 ((cfg0.slots t 5).cast nbuf0_5)
abbrev scM0_0 : Memref sig .tc .vmem S32x1 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

/-- The scratch is one of the scoped buffers the invariant names: split off. -/
theorem PhiA0_eq (c : Dev nD) :
    (Pipeline.ΦA spec0 c : sProp 𝕄) = iprop(((∃ d, owns (c : Thread nD τ) scM0_0 fullShare d) ∗ rest0 (F := F) c) ∗ ∃ r, prngReg c r) := by
  unfold Pipeline.ΦA; rw [Pipeline.scopedRest_split_of_list spec0 c [cc0_scratch0] (by decide) (by decide)]
  simp only [scM0_0, owns_whole]; try rfl

end Cert.Kernel.R0

end
-- ==== Proof.K.R0RunA.lean ====
import proofs.«426955_j43147241456154_3_alg».proof.Proof.K.R0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x1 .f32) (harg7 : arg7.IsWhole) (arg8 : Memref sig .tc .vmem S32x1 .f32) (harg8 : arg8.IsWhole) (hc0 : cond0_0 i) (hc1 : ¬cond0_1 i)
    (x0 : Vec F S32x3 .f32) (x1 : Vec F S3x128 .f32) (x2 : Vec F S27x3 .f32) (x3 : Vec F S32x1 .f32) (x4 : Vec F S1x128 .f32) :
    Σ' (L5 : List (View.Piece (Elt F) S32x1 .f32)), { LS0 : List (View.Piece (Elt F) S32x1 .f32) //
      ∀ (xi5 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__cn_kernel_body i arg2 harg2 arg3 harg3 arg4 harg4 arg5 harg5 arg6 harg6 arg7 harg7 arg8 harg8) K } := by
  refine ⟨[], ?_, fun xi5 E K => ?run⟩
  case run =>
    simp only [cc0__cn_kernel_body_eq_skeleton]; unfold cc0__cn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.R0

end
-- ==== Proof.K.R0RunB.lean ====
import proofs.«426955_j43147241456154_3_alg».proof.Proof.K.R0RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : ¬cond0_1 i)
    (x0 : Vec F S32x3 .f32) (x1 : Vec F S3x128 .f32) (x2 : Vec F S27x3 .f32) (x3 : Vec F S32x1 .f32) (x4 : Vec F S1x128 .f32) (xs0 : Vec F S32x1 .f32) :
    Σ' (L5 : List (View.Piece (Elt F) S32x1 .f32)), { LS0 : List (View.Piece (Elt F) S32x1 .f32) //
      ∀ (xi5 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__cn_kernel_body i arg2 harg2 arg3 harg3 arg4 harg4 arg5 harg5 arg6 harg6 arg7 harg7 arg8 harg8) K } := by
  refine ⟨[], ?_, fun xi5 E K => ?run⟩
  case run =>
    simp only [cc0__cn_kernel_body_eq_skeleton]; unfold cc0__cn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.R0

end
-- ==== Proof.K.R0RunC.lean ====
import proofs.«426955_j43147241456154_3_alg».proof.Proof.K.R0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : cond0_1 i)
    (x0 : Vec F S32x3 .f32) (x1 : Vec F S3x128 .f32) (x2 : Vec F S27x3 .f32) (x3 : Vec F S32x1 .f32) (x4 : Vec F S1x128 .f32) (xs0 : Vec F S32x1 .f32) :
    Σ' (L5 : List (View.Piece (Elt F) S32x1 .f32)), { LS0 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__cn_kernel_body i arg2 harg2 arg3 harg3 arg4 harg4 arg5 harg5 arg6 harg6 arg7 harg7 arg8 harg8) K } := by
  refine ⟨?_, ?_, fun E K => ?run⟩
  case run =>
    simp only [cc0__cn_kernel_body_eq_skeleton]; unfold cc0__cn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.R0

end
-- ==== Proof.K.R0Body.lean ====
import proofs.«426955_j43147241456154_3_alg».proof.Proof.K.R0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array in `V` at point `t`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three cases' runs at grid point `t`, by `t mod 4`: 0, then 1 or 2, then 3; `a` is the scratch the point starts from. -/
def runA (c : Dev nD) (t : Fin cfg0.N) (h0 : t.val % 4 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t)
def runB (c : Dev nD) (t : Fin cfg0.N) (h0 : ¬t.val % 4 = 0) (h1 : ¬t.val % 4 = 3) (a : Vec F S32x1 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (mt (hcond0_0 t).mp h0) (mt (hcond0_1 t).mp h1) (iblk0 V c 0 t) (iblk0 V c 1 t) (iblk0 V c 2 t) (iblk0 V c 3 t) (iblk0 V c 4 t) a
def runC (c : Dev nD) (t : Fin cfg0.N) (h1 : t.val % 4 = 3) (a : Vec F S32x1 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) a

/-- Each case's pieces tile the 32×1 shape, so they cover it. -/
theorem coverA (c : Dev nD) (t : Fin cfg0.N) (h0 : t.val % 4 = 0) : ∀ y : S32x1.Idx, ∃ p ∈ (runA V c t h0).2.1, y ∈ p.1.set :=
  View.cover_of_tiledL _ S32x1.size (by sl_kernel_rfl)
theorem coverB (c : Dev nD) (t : Fin cfg0.N) (h0 : ¬t.val % 4 = 0) (h1 : ¬t.val % 4 = 3) (a : Vec F S32x1 .f32) :
    ∀ y : S32x1.Idx, ∃ p ∈ (runB V c t h0 h1 a).2.1, y ∈ p.1.set :=
  View.cover_of_tiledL _ S32x1.size (by sl_kernel_rfl)
theorem coverC (c : Dev nD) (t : Fin cfg0.N) (h1 : t.val % 4 = 3) (a : Vec F S32x1 .f32) :
    (∀ y : S32x1.Idx, ∃ p ∈ (runC V c t h1 a).1, y ∈ p.1.set) ∧ ∀ y : S32x1.Idx, ∃ p ∈ (runC V c t h1 a).2.1, y ∈ p.1.set :=
  ⟨View.cover_of_tiledL _ S32x1.size (by sl_kernel_rfl), View.cover_of_tiledL _ S32x1.size (by sl_kernel_rfl)⟩

/-- What the body at point `t` leaves in the output window and in the scratch, from the scratch `a`: its case's pieces' canons. -/
def stepAt (c : Dev nD) (t : Fin cfg0.N) (a : Vec F S32x1 .f32) : Vec F S32x1 .f32 × Vec F S32x1 .f32 :=
  if h0 : t.val % 4 = 0 then (View.canon (runA V c t h0).1, View.canon (runA V c t h0).2.1)
  else if h1 : t.val % 4 = 3 then (View.canon (runC V c t h1 a).1, View.canon (runC V c t h1 a).2.1)
  else (View.canon (runB V c t h0 h1 a).1, View.canon (runB V c t h0 h1 a).2.1)

/-- THE ACCUMULATION: the output window and the scratch after position `n`, by recursion along the points. -/
def outsAt0 (c : Dev nD) : (n : ℕ) → n < cfg0.N → Vec F S32x1 .f32 × Vec F S32x1 .f32
  | 0, hn => stepAt V c ⟨0, hn⟩ (k0_pay1 (F := F))
  | n + 1, hn => stepAt V c ⟨n + 1, hn⟩ (outsAt0 c n (Nat.lt_of_succ_lt hn)).2

/-- The scratch position `n` starts from (case A, at position 0, reads nothing of it). -/
def accB (c : Dev nD) : (n : ℕ) → n ≤ cfg0.N → Vec F S32x1 .f32
  | 0, _ => k0_pay1 (F := F)
  | n + 1, hn => (outsAt0 V c n hn).2

theorem outsAt0_eq (c : Dev nD) (t : Fin cfg0.N) :
    outsAt0 V c t.val t.isLt = stepAt V c t (accB V c t.val (Nat.le_of_lt t.isLt)) := by
  obtain ⟨_ | n, hn⟩ := t <;> rfl

theorem outs_A (c : Dev nD) (t : Fin cfg0.N) (h0 : t.val % 4 = 0) :
    outsAt0 V c t.val t.isLt = (View.canon (runA V c t h0).1, View.canon (runA V c t h0).2.1) :=
  (outsAt0_eq V c t).trans (dif_pos h0)
theorem outs_B (c : Dev nD) (t : Fin cfg0.N) (h0 : ¬t.val % 4 = 0) (h1 : ¬t.val % 4 = 3) :
    outsAt0 V c t.val t.isLt = (View.canon (runB V c t h0 h1 (accB V c t.val (Nat.le_of_lt t.isLt))).1, View.canon (runB V c t h0 h1 (accB V c t.val (Nat.le_of_lt t.isLt))).2.1) :=
  (outsAt0_eq V c t).trans ((dif_neg h0).trans (dif_neg h1))
theorem outs_C (c : Dev nD) (t : Fin cfg0.N) (h1 : t.val % 4 = 3) :
    outsAt0 V c t.val t.isLt = (View.canon (runC V c t h1 (accB V c t.val (Nat.le_of_lt t.isLt))).1, View.canon (runC V c t h1 (accB V c t.val (Nat.le_of_lt t.isLt))).2.1) :=
  (outsAt0_eq V c t).trans ((dif_neg (by omega)).trans (dif_pos h1))

/-- The scratch before position `n`: at anything before the first point, then at what the point before left. -/
def scrAt (c : Dev nD) : (n : ℕ) → n ≤ cfg0.N → sProp 𝕄
  | 0, _ => iprop(∃ d, owns (c : Thread nD τ) scM0_0 fullShare d)
  | n + 1, hn => owns (c : Thread nD τ) scM0_0 fullShare (accB V c (n + 1) hn)

theorem scrAt_any (c : Dev nD) (n : ℕ) (h : n ≤ cfg0.N) : scrAt V c n h ⊢ iprop(∃ d, owns (c : Thread nD τ) scM0_0 fullShare d) := by
  cases n with
  | zero => exact Idealize.SL.BI.Entails.refl _
  | succ n => unfold scrAt; iintro H; iexists _; iexact H

theorem scrAt_pos (c : Dev nD) (n : ℕ) (h : n ≤ cfg0.N) (hz : n ≠ 0) :
    scrAt V c n h ⊢ owns (c : Thread nD τ) scM0_0 fullShare (accB V c n h) := by
  cases n with
  | zero => exact absurd rfl hz
  | succ n => exact Idealize.SL.BI.Entails.refl _

/-- The region's invariant before position `n`. -/
def PhiS (c : Dev nD) (n : ℕ) (h : n ≤ cfg0.N) : sProp 𝕄 :=
  iprop((scrAt V c n h ∗ rest0 (F := F) c) ∗ ∃ r, prngReg c r)

/-- The proof data: the arrays in `V`; each input's block and `outsAt0`'s first component after the body; `PhiS`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_5 (c : Dev nD) (t : Fin cfg0.N) : (dat0 V c).after 5 t = (outsAt0 V c t.val t.isLt).1 := by dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

/-- Every input's block is what the body starts from and what it leaves. -/
theorem io0 (c : Dev nD) (t : Fin cfg0.N) :
    ((∀ d, (dat0 V c).before 0 t d = iblk0 V c 0 t) ∧ (dat0 V c).leavesExact 0 t = owns (c : Thread nD τ) (ms0_0 t) fullShare (iblk0 V c 0 t))
    ∧ ((∀ d, (dat0 V c).before 1 t d = iblk0 V c 1 t) ∧ (dat0 V c).leavesExact 1 t = owns (c : Thread nD τ) (ms0_1 t) fullShare (iblk0 V c 1 t))
    ∧ ((∀ d, (dat0 V c).before 2 t d = iblk0 V c 2 t) ∧ (dat0 V c).leavesExact 2 t = owns (c : Thread nD τ) (ms0_2 t) fullShare (iblk0 V c 2 t))
    ∧ ((∀ d, (dat0 V c).before 3 t d = iblk0 V c 3 t) ∧ (dat0 V c).leavesExact 3 t = owns (c : Thread nD τ) (ms0_3 t) fullShare (iblk0 V c 3 t))
    ∧ ((∀ d, (dat0 V c).before 4 t d = iblk0 V c 4 t) ∧ (dat0 V c).leavesExact 4 t = owns (c : Thread nD τ) (ms0_4 t) fullShare (iblk0 V c 4 t)) := by
  refine ⟨?_, ?_, ?_, ?_, ?_⟩ <;> exact
    ⟨fun d => ((dat0 V c).before_in_eq_fetched _ rfl (fun _ => rfl) (fun _ _ _ => rfl) (fun t => by unfold Dat.blockOf; dsimp only [dat0, iblk0]; try rfl) t d).trans
      (by unfold Dat.fetched Dat.blockOf; dsimp only [dat0, iblk0]; try rfl),
     by unfold Dat.leavesExact; rw [liveAt0]; · dsimp only [dat0]; try rfl
        · decide⟩

/-- The body at any point: its case by `t mod 4`; that case's run, framed by the rest of the invariant. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨⟨b0, l0⟩, ⟨b1, l1⟩, ⟨b2, l2⟩, ⟨b3, l3⟩, ⟨b4, l4⟩⟩ := io0 V c t
  simp only [b0, b1, b2, b3, b4]
  rw [show (dat0 V c).owesAt () t.succ = (dat0 V c).owesAt () t.castSucc from rfl,
    show (dat0 V c).Φ t.succ = PhiS V c (t.val + 1) t.isLt from rfl, PhiS_castSucc V c t, l0, l1, l2, l3, l4]
  unfold PhiS
  rw [show scrAt V c (t.val + 1) t.isLt = owns (c : Thread nD τ) scM0_0 fullShare (outsAt0 V c t.val t.isLt).2 from rfl]
  iintro ⟨⟨⟨HS, Hr⟩, Hg⟩, Ho, ⟨%d0, H0⟩, ⟨%d1, H1⟩, ⟨%d2, H2⟩, ⟨%d3, H3⟩, ⟨%d4, H4⟩, ⟨%d5, H5⟩⟩
  by_cases h0 : t.val % 4 = 0
  · have h1 : ¬t.val % 4 = 3 := by omega
    rw [Dat.leavesExact_idle (dat0 V c) 5 t ((idle0_5 t).mpr h1) (Bool.eq_false_iff.mpr fun h => h1 ((flush0_5 t).mp h)), outs_A V c t h0]
    iapply ((runA V c t h0).2.2 ((dat0 V c).before 5 t d5) Set.univ _)
    iframe H0 H1 H2 H3 H4 H5
    isplitl [HS]; · iapply (scrAt_any V c _ _) $$ HS
    iintro ⟨H0, H1, H2, H3, H4, H5, HS⟩
    iframe Hr Hg Ho H0 H1 H2 H3 H4
    isplitl [HS]; · iapply (R1.owns_canon c _ _ (coverA V c t h0)) $$ HS
    iexists _; iexact H5
  · have hz : t.val ≠ 0 := by omega
    by_cases h1 : t.val % 4 = 3
    · rw [show (dat0 V c).leavesExact 5 t = owns (c : Thread nD τ) (ms0_5 t) fullShare ((dat0 V c).after 5 t) from by
        unfold Dat.leavesExact; rw [Bool.eq_false_iff.mpr fun h => (idle0_5 t).mp h h1], after0_5, outs_C V c t h1]
      iapply ((runC V c t h1 _).2.2 Set.univ _)
      iframe H0 H1 H2 H3 H4
      isplitl [H5]; · iexists _; iexact H5
      isplitl [HS]; · iapply (scrAt_pos V c _ _ hz) $$ HS
      iintro ⟨H0, H1, H2, H3, H4, H5, HS⟩
      iframe Hr Hg Ho H0 H1 H2 H3 H4
      isplitl [HS]; · iapply (R1.owns_canon c _ _ (coverC V c t h1 _).2) $$ HS
      iapply (R1.owns_canon c _ _ (coverC V c t h1 _).1) $$ H5
    · rw [Dat.leavesExact_idle (dat0 V c) 5 t ((idle0_5 t).mpr h1) (Bool.eq_false_iff.mpr fun h => h1 ((flush0_5 t).mp h)), outs_B V c t h0 h1]
      iapply ((runB V c t h0 h1 _).2.2 ((dat0 V c).before 5 t d5) Set.univ _)
      iframe H0 H1 H2 H3 H4 H5
      isplitl [HS]; · iapply (scrAt_pos V c _ _ hz) $$ HS
      iintro ⟨H0, H1, H2, H3, H4, H5, HS⟩
      iframe Hr Hg Ho H0 H1 H2 H3 H4
      isplitl [HS]; · iapply (R1.owns_canon c _ _ (coverB V c t h0 h1 _)) $$ HS
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Entails.of_eq (PhiA0_eq c)

theorem hout0 (c : Dev nD) : (dat0 V c).Φ (Fin.last cfg0.N) ⊢ Pipeline.ΦA spec0 c :=
  (sep_mono_left (sep_mono_left (scrAt_any V c _ _))).trans (Entails.of_eq (PhiA0_eq c).symm)

end Cert.Kernel.R0

end
-- ==== Proof.K.R1RunA.lean ====
import proofs.«426955_j43147241456154_3_alg».proof.Proof.K.R1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x75x128 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S1x128 .f32) (harg10 : arg10.IsWhole) (arg11 : Memref sig .tc .vmem S32x1 .f32) (harg11 : arg11.IsWhole) (arg12 : Memref sig .tc .vmem S32x1 .f32) (harg12 : arg12.IsWhole) (hc0 : cond1_0 i) (hc1 : ¬cond1_1 i)
    (x0 : Vec F S32x3 .f32) (x1 : Vec F S3x128 .f32) (x2 : Vec F S27x3 .f32) (x3 : Vec F S32x1 .f32) (x4 : Vec F S1x128 .f32) (x5 : Vec F S32x75x128 .f32) (x6 : Vec F S32x128 .f32) (x7 : Vec F S32x1 .f32) (x8 : Vec F S1x128 .f32) :
    Σ' (L9 : List (View.Piece (Elt F) S32x1 .f32)), { LS0 : List (View.Piece (Elt F) S32x1 .f32) //
      ∀ (xi9 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__energy_kernel_body i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc1__energy_kernel_body_eq_skeleton]; unfold cc1__energy_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.R1

end
-- ==== Proof.K.R1RunB.lean ====
import proofs.«426955_j43147241456154_3_alg».proof.Proof.K.R1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x75x128 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S1x128 .f32) (harg10 : arg10.IsWhole) (arg11 : Memref sig .tc .vmem S32x1 .f32) (harg11 : arg11.IsWhole) (arg12 : Memref sig .tc .vmem S32x1 .f32) (harg12 : arg12.IsWhole) (hc0 : ¬cond1_0 i) (hc1 : ¬cond1_1 i)
    (x0 : Vec F S32x3 .f32) (x1 : Vec F S3x128 .f32) (x2 : Vec F S27x3 .f32) (x3 : Vec F S32x1 .f32) (x4 : Vec F S1x128 .f32) (x5 : Vec F S32x75x128 .f32) (x6 : Vec F S32x128 .f32) (x7 : Vec F S32x1 .f32) (x8 : Vec F S1x128 .f32) (xs0 : Vec F S32x1 .f32) :
    Σ' (L9 : List (View.Piece (Elt F) S32x1 .f32)), { LS0 : List (View.Piece (Elt F) S32x1 .f32) //
      ∀ (xi9 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__energy_kernel_body i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc1__energy_kernel_body_eq_skeleton]; unfold cc1__energy_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.R1

end
-- ==== Proof.K.R1RunC.lean ====
import proofs.«426955_j43147241456154_3_alg».proof.Proof.K.R1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x75x128 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S1x128 .f32) (harg10 : arg10.IsWhole) (arg11 : Memref sig .tc .vmem S32x1 .f32) (harg11 : arg11.IsWhole) (arg12 : Memref sig .tc .vmem S32x1 .f32) (harg12 : arg12.IsWhole) (hc0 : ¬cond1_0 i) (hc1 : cond1_1 i)
    (x0 : Vec F S32x3 .f32) (x1 : Vec F S3x128 .f32) (x2 : Vec F S27x3 .f32) (x3 : Vec F S32x1 .f32) (x4 : Vec F S1x128 .f32) (x5 : Vec F S32x75x128 .f32) (x6 : Vec F S32x128 .f32) (x7 : Vec F S32x1 .f32) (x8 : Vec F S1x128 .f32) (xs0 : Vec F S32x1 .f32) :
    Σ' (L9 : List (View.Piece (Elt F) S32x1 .f32)), { LS0 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1__energy_kernel_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__energy_kernel_body_eq_skeleton]; unfold cc1__energy_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.Kernel.R1

end
-- ==== Proof.K.R1Body.lean ====
import proofs.«426955_j43147241456154_3_alg».proof.Proof.K.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three cases' runs at grid point `t`, by `t mod 4`: 0, then 1 or 2, then 3; `a` is the scratch the point starts from. -/
def runA (c : Dev nD) (t : Fin cfg1.N) (h0 : t.val % 4 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t) (iblk1 V c 5 t) (iblk1 V c 6 t) (iblk1 V c 7 t) (iblk1 V c 8 t)
def runB (c : Dev nD) (t : Fin cfg1.N) (h0 : ¬t.val % 4 = 0) (h1 : ¬t.val % 4 = 3) (a : Vec F S32x1 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (mt (hcond1_0 t).mp h0) (mt (hcond1_1 t).mp h1) (iblk1 V c 0 t) (iblk1 V c 1 t) (iblk1 V c 2 t) (iblk1 V c 3 t) (iblk1 V c 4 t) (iblk1 V c 5 t) (iblk1 V c 6 t) (iblk1 V c 7 t) (iblk1 V c 8 t) a
def runC (c : Dev nD) (t : Fin cfg1.N) (h1 : t.val % 4 = 3) (a : Vec F S32x1 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => absurd ((hcond1_0 t).mp h) (by omega)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) a

/-- Each case's pieces tile the 32×1 shape, so they cover it. -/
theorem coverA (c : Dev nD) (t : Fin cfg1.N) (h0 : t.val % 4 = 0) : ∀ y : S32x1.Idx, ∃ p ∈ (runA V c t h0).2.1, y ∈ p.1.set :=
  View.cover_of_tiledL _ S32x1.size (by sl_kernel_rfl)
theorem coverB (c : Dev nD) (t : Fin cfg1.N) (h0 : ¬t.val % 4 = 0) (h1 : ¬t.val % 4 = 3) (a : Vec F S32x1 .f32) :
    ∀ y : S32x1.Idx, ∃ p ∈ (runB V c t h0 h1 a).2.1, y ∈ p.1.set :=
  View.cover_of_tiledL _ S32x1.size (by sl_kernel_rfl)
theorem coverC (c : Dev nD) (t : Fin cfg1.N) (h1 : t.val % 4 = 3) (a : Vec F S32x1 .f32) :
    (∀ y : S32x1.Idx, ∃ p ∈ (runC V c t h1 a).1, y ∈ p.1.set) ∧ ∀ y : S32x1.Idx, ∃ p ∈ (runC V c t h1 a).2.1, y ∈ p.1.set :=
  ⟨View.cover_of_tiledL _ S32x1.size (by sl_kernel_rfl), View.cover_of_tiledL _ S32x1.size (by sl_kernel_rfl)⟩

/-- What the body at point `t` leaves in the output window and in the scratch, from the scratch `a`: its case's pieces' canons. -/
def stepAt (c : Dev nD) (t : Fin cfg1.N) (a : Vec F S32x1 .f32) : Vec F S32x1 .f32 × Vec F S32x1 .f32 :=
  if h0 : t.val % 4 = 0 then (View.canon (runA V c t h0).1, View.canon (runA V c t h0).2.1)
  else if h1 : t.val % 4 = 3 then (View.canon (runC V c t h1 a).1, View.canon (runC V c t h1 a).2.1)
  else (View.canon (runB V c t h0 h1 a).1, View.canon (runB V c t h0 h1 a).2.1)

/-- THE ACCUMULATION: the output window and the scratch after position `n`, by recursion along the points. -/
def outsAt1 (c : Dev nD) : (n : ℕ) → n < cfg1.N → Vec F S32x1 .f32 × Vec F S32x1 .f32
  | 0, hn => stepAt V c ⟨0, hn⟩ (k1_pay2 (F := F))
  | n + 1, hn => stepAt V c ⟨n + 1, hn⟩ (outsAt1 c n (Nat.lt_of_succ_lt hn)).2

/-- The scratch position `n` starts from (case A, at position 0, reads nothing of it). -/
def accB (c : Dev nD) : (n : ℕ) → n ≤ cfg1.N → Vec F S32x1 .f32
  | 0, _ => k1_pay2 (F := F)
  | n + 1, hn => (outsAt1 V c n hn).2

theorem outsAt1_eq (c : Dev nD) (t : Fin cfg1.N) :
    outsAt1 V c t.val t.isLt = stepAt V c t (accB V c t.val (Nat.le_of_lt t.isLt)) := by
  obtain ⟨_ | n, hn⟩ := t <;> rfl

theorem outs_A (c : Dev nD) (t : Fin cfg1.N) (h0 : t.val % 4 = 0) :
    outsAt1 V c t.val t.isLt = (View.canon (runA V c t h0).1, View.canon (runA V c t h0).2.1) :=
  (outsAt1_eq V c t).trans (dif_pos h0)
theorem outs_B (c : Dev nD) (t : Fin cfg1.N) (h0 : ¬t.val % 4 = 0) (h1 : ¬t.val % 4 = 3) :
    outsAt1 V c t.val t.isLt = (View.canon (runB V c t h0 h1 (accB V c t.val (Nat.le_of_lt t.isLt))).1, View.canon (runB V c t h0 h1 (accB V c t.val (Nat.le_of_lt t.isLt))).2.1) :=
  (outsAt1_eq V c t).trans ((dif_neg h0).trans (dif_neg h1))
theorem outs_C (c : Dev nD) (t : Fin cfg1.N) (h1 : t.val % 4 = 3) :
    outsAt1 V c t.val t.isLt = (View.canon (runC V c t h1 (accB V c t.val (Nat.le_of_lt t.isLt))).1, View.canon (runC V c t h1 (accB V c t.val (Nat.le_of_lt t.isLt))).2.1) :=
  (outsAt1_eq V c t).trans ((dif_neg (by omega)).trans (dif_pos h1))

/-- The scratch before position `n`: at anything before the first point, then at what the point before left. -/
def scrAt (c : Dev nD) : (n : ℕ) → n ≤ cfg1.N → sProp 𝕄
  | 0, _ => iprop(∃ d, owns (c : Thread nD τ) scM1_0 fullShare d)
  | n + 1, hn => owns (c : Thread nD τ) scM1_0 fullShare (accB V c (n + 1) hn)

theorem scrAt_any (c : Dev nD) (n : ℕ) (h : n ≤ cfg1.N) : scrAt V c n h ⊢ iprop(∃ d, owns (c : Thread nD τ) scM1_0 fullShare d) := by
  cases n with
  | zero => exact Idealize.SL.BI.Entails.refl _
  | succ n => unfold scrAt; iintro H; iexists _; iexact H

theorem scrAt_pos (c : Dev nD) (n : ℕ) (h : n ≤ cfg1.N) (hz : n ≠ 0) :
    scrAt V c n h ⊢ owns (c : Thread nD τ) scM1_0 fullShare (accB V c n h) := by
  cases n with
  | zero => exact absurd rfl hz
  | succ n => exact Idealize.SL.BI.Entails.refl _

/-- The region's invariant before position `n`. -/
def PhiS (c : Dev nD) (n : ℕ) (h : n ≤ cfg1.N) : sProp 𝕄 :=
  iprop((scrAt V c n h ∗ rest1 (F := F) c) ∗ ∃ r, prngReg c r)

/-- The proof data: the arrays in `V`; each input's block and `outsAt1`'s first component after the body; `PhiS`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS V c t.val (Nat.le_of_lt_succ t.isLt)
  q _ := fullShare
  owed _ := 0

theorem PhiS_castSucc (c : Dev nD) (t : Fin cfg1.N) :
    (dat1 V c).Φ t.castSucc = PhiS V c t.val (Nat.le_of_lt t.isLt) := by
  dsimp only [dat1]; simp only [Fin.coe_castSucc]

theorem after1_9 (c : Dev nD) (t : Fin cfg1.N) : (dat1 V c).after 9 t = (outsAt1 V c t.val t.isLt).1 := by dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

/-- Every input's block is what the body starts from and what it leaves. -/
theorem io1 (c : Dev nD) (t : Fin cfg1.N) :
    ((∀ d, (dat1 V c).before 0 t d = iblk1 V c 0 t) ∧ (dat1 V c).leavesExact 0 t = owns (c : Thread nD τ) (ms1_0 t) fullShare (iblk1 V c 0 t))
    ∧ ((∀ d, (dat1 V c).before 1 t d = iblk1 V c 1 t) ∧ (dat1 V c).leavesExact 1 t = owns (c : Thread nD τ) (ms1_1 t) fullShare (iblk1 V c 1 t))
    ∧ ((∀ d, (dat1 V c).before 2 t d = iblk1 V c 2 t) ∧ (dat1 V c).leavesExact 2 t = owns (c : Thread nD τ) (ms1_2 t) fullShare (iblk1 V c 2 t))
    ∧ ((∀ d, (dat1 V c).before 3 t d = iblk1 V c 3 t) ∧ (dat1 V c).leavesExact 3 t = owns (c : Thread nD τ) (ms1_3 t) fullShare (iblk1 V c 3 t))
    ∧ ((∀ d, (dat1 V c).before 4 t d = iblk1 V c 4 t) ∧ (dat1 V c).leavesExact 4 t = owns (c : Thread nD τ) (ms1_4 t) fullShare (iblk1 V c 4 t))
    ∧ ((∀ d, (dat1 V c).before 5 t d = iblk1 V c 5 t) ∧ (dat1 V c).leavesExact 5 t = owns (c : Thread nD τ) (ms1_5 t) fullShare (iblk1 V c 5 t))
    ∧ ((∀ d, (dat1 V c).before 6 t d = iblk1 V c 6 t) ∧ (dat1 V c).leavesExact 6 t = owns (c : Thread nD τ) (ms1_6 t) fullShare (iblk1 V c 6 t))
    ∧ ((∀ d, (dat1 V c).before 7 t d = iblk1 V c 7 t) ∧ (dat1 V c).leavesExact 7 t = owns (c : Thread nD τ) (ms1_7 t) fullShare (iblk1 V c 7 t))
    ∧ ((∀ d, (dat1 V c).before 8 t d = iblk1 V c 8 t) ∧ (dat1 V c).leavesExact 8 t = owns (c : Thread nD τ) (ms1_8 t) fullShare (iblk1 V c 8 t)) := by
  refine ⟨?_, ?_, ?_, ?_, ?_, ?_, ?_, ?_, ?_⟩ <;> exact
    ⟨fun d => ((dat1 V c).before_in_eq_fetched _ rfl (fun _ => rfl) (fun _ _ _ => rfl) (fun t => by unfold Dat.blockOf; dsimp only [dat1, iblk1]; try rfl) t d).trans
      (by unfold Dat.fetched Dat.blockOf; dsimp only [dat1, iblk1]; try rfl),
     by unfold Dat.leavesExact; rw [liveAt1]; · dsimp only [dat1]; try rfl
        · decide⟩

set_option maxHeartbeats 8000000 in
/-- The body at any point: its case by `t mod 4`; that case's run, framed by the rest of the invariant. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨⟨b0, l0⟩, ⟨b1, l1⟩, ⟨b2, l2⟩, ⟨b3, l3⟩, ⟨b4, l4⟩, ⟨b5, l5⟩, ⟨b6, l6⟩, ⟨b7, l7⟩, ⟨b8, l8⟩⟩ := io1 V c t
  simp only [b0, b1, b2, b3, b4, b5, b6, b7, b8]
  rw [show (dat1 V c).owesAt () t.succ = (dat1 V c).owesAt () t.castSucc from rfl,
    show (dat1 V c).Φ t.succ = PhiS V c (t.val + 1) t.isLt from rfl, PhiS_castSucc V c t, l0, l1, l2, l3, l4, l5, l6, l7, l8]
  unfold PhiS
  rw [show scrAt V c (t.val + 1) t.isLt = owns (c : Thread nD τ) scM1_0 fullShare (outsAt1 V c t.val t.isLt).2 from rfl]
  iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 4 = 0
  · have h1 : ¬t.val % 4 = 3 := by omega
    rw [Dat.leavesExact_idle (dat1 V c) 9 t ((idle1_9 t).mpr h1) (Bool.eq_false_iff.mpr fun h => h1 ((flush1_9 t).mp h)), outs_A V c t h0]
    iapply ((runA V c t h0).2.2 ((dat1 V c).before 9 t d9) Set.univ _)
    iframe H0 H1 H2 H3 H4 H5 H6 H7 H8 H9
    isplitl [HS]; · iapply (scrAt_any V c _ _) $$ HS
    iintro ⟨H0, H1, H2, H3, H4, H5, H6, H7, H8, H9, HS⟩
    iframe Hr Hg Ho H0 H1 H2 H3 H4 H5 H6 H7 H8
    isplitl [HS]; · iapply (owns_canon c _ _ (coverA V c t h0)) $$ HS
    iexists _; iexact H9
  · have hz : t.val ≠ 0 := by omega
    by_cases h1 : t.val % 4 = 3
    · rw [show (dat1 V c).leavesExact 9 t = owns (c : Thread nD τ) (ms1_9 t) fullShare ((dat1 V c).after 9 t) from by
        unfold Dat.leavesExact; rw [Bool.eq_false_iff.mpr fun h => (idle1_9 t).mp h h1], after1_9, outs_C V c t h1]
      iapply ((runC V c t h1 _).2.2 Set.univ _)
      iframe H0 H1 H2 H3 H4 H5 H6 H7 H8
      isplitl [H9]; · iexists _; iexact H9
      isplitl [HS]; · iapply (scrAt_pos V c _ _ hz) $$ HS
      iintro ⟨H0, H1, H2, H3, H4, H5, H6, H7, H8, H9, HS⟩
      iframe Hr Hg Ho H0 H1 H2 H3 H4 H5 H6 H7 H8
      isplitl [HS]; · iapply (owns_canon c _ _ (coverC V c t h1 _).2) $$ HS
      iapply (owns_canon c _ _ (coverC V c t h1 _).1) $$ H9
    · rw [Dat.leavesExact_idle (dat1 V c) 9 t ((idle1_9 t).mpr h1) (Bool.eq_false_iff.mpr fun h => h1 ((flush1_9 t).mp h)), outs_B V c t h0 h1]
      iapply ((runB V c t h0 h1 _).2.2 ((dat1 V c).before 9 t d9) Set.univ _)
      iframe H0 H1 H2 H3 H4 H5 H6 H7 H8 H9
      isplitl [HS]; · iapply (scrAt_pos V c _ _ hz) $$ HS
      iintro ⟨H0, H1, H2, H3, H4, H5, H6, H7, H8, H9, HS⟩
      iframe Hr Hg Ho H0 H1 H2 H3 H4 H5 H6 H7 H8
      isplitl [HS]; · iapply (owns_canon c _ _ (coverB V c t h0 h1 _)) $$ HS
      iexists _; iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.of_eq (PhiA1_eq c)

theorem hout1 (c : Dev nD) : (dat1 V c).Φ (Fin.last cfg1.N) ⊢ Pipeline.ΦA spec1 c :=
  (sep_mono_left (sep_mono_left (scrAt_any V c _ _))).trans (Entails.of_eq (PhiA1_eq c).symm)

end Cert.Kernel.R1

end
-- ==== Proof.K.Run.lean ====
import proofs.«426955_j43147241456154_3_alg».proof.Proof.K.R0Body
import proofs.«426955_j43147241456154_3_alg».proof.Proof.K.R1Body

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (R0.dat0 (V1 m ρ) c).arrAt w cfg0.N
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (R1.dat1 (V3 m ρ) c).arrAt w cfg1.N
abbrev W5 : Dev nD → Valuation τ sig (Elt F) := fun c => StableHlo.after hostOps2 (W4 m ρ c)

section
variable (c : Dev nD)

theorem W2_arr (w : Fin cfg0.W) :
    W2 m ρ c (Proc.devRef .tc (Pipeline.arrRef spec0 w)) = (R0.dat0 (V1 m ρ) c).arrAt w cfg0.N :=
  Pipeline.withArrays_arr spec0 launch0.win.arr_inj c _ _ w
theorem W2_of_ne (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W4_arr (w : Fin cfg1.W) :
    W4 m ρ c (Proc.devRef .tc (Pipeline.arrRef spec1 w)) = (R1.dat1 (V3 m ρ) c).arrAt w cfg1.N :=
  Pipeline.withArrays_arr spec1 launch1.win.arr_inj c _ _ w
theorem W4_of_ne (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev hostOps0_W : List (Ref sig .tc) := [main_cst, main_v0, main_v1, main_v2, main_cst_0, main_v3, main_v4, main_v5, main_v6, main_c, main_v7, main_v8, main_c_1, main_v9, main_v10, main_v11, main_v12, main_v13, main_c_2, main_v14, main_v15, main_c_3, main_v16, main_v17, main_v18, main_v19, main_v20, main_v21, main_v22, main_v23, main_v24, main_v25, main_v26, main_v27, main_v28, main_c_4, main_v29, main_v30, main_c_5, main_v31, main_v32, main_v33, main_c_6, main_v34, main_v35, main_c_7, main_v36, main_v37, main_v38, main_v39, main_v40, main_v41, main_v42, main_v43, main_v44, main_v45, main_v46, main_v47, main_c_8, main_v48, main_v49, main_c_9, main_v50, main_v51, main_v52, main_c_10, main_v53, main_v54, main_c_11, main_v55, main_v56, main_v57, main_v58, main_v59, main_v60, main_v61, main_v62, main_v63]
abbrev hostOps1_W : List (Ref sig .tc) := [main_v65]
abbrev hostOps2_W : List (Ref sig .tc) := [main_cst_12, main_v67, main_cst_13, main_v68]

/-- Each host operation writes its own result only. -/
theorem hostOps_writes :
    ((hostOps0 : List (HloOp τ sig (Elt F))).Forall fun op => op.writes ⊆ (hostOps0_W.map (Proc.devRef (τ := τ) .tc)).toFinset) ∧
    ((hostOps1 : List (HloOp τ sig (Elt F))).Forall fun op => op.writes ⊆ (hostOps1_W.map (Proc.devRef (τ := τ) .tc)).toFinset) ∧
    ((hostOps2 : List (HloOp τ sig (Elt F))).Forall fun op => op.writes ⊆ (hostOps2_W.map (Proc.devRef (τ := τ) .tc)).toFinset) := by
  simp only [List.Forall]
  repeat' apply And.intro
  all_goals exact Finset.singleton_subset_iff.2 (List.mem_toFinset.2 (List.mem_map_of_mem (by decide)))
theorem hostOps_fresh :
    ((hostOps0 : List (HloOp τ sig (Elt F))).Forall fun op => op.fresh = ∅) ∧
    ((hostOps1 : List (HloOp τ sig (Elt F))).Forall fun op => op.fresh = ∅) ∧
    ((hostOps2 : List (HloOp τ sig (Elt F))).Forall fun op => op.fresh = ∅) := by
  simp only [List.Forall]; repeat' constructor

theorem W3_of (r : Ref sig .tc) (h : r ∉ hostOps1_W) : W3 m ρ c (Proc.devRef .tc r) = W2 m ρ c (Proc.devRef .tc r) :=
  StableHlo.after_of_writes_sub hostOps1 _ hostOps_writes.2.1 h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev args : List (Ref sig .tc) := [main_arg0, main_arg1, main_arg2, main_arg3, main_arg4, main_arg5, main_arg6, main_arg7]

/-- No host operation writes an argument array and neither call has one among its arrays: it ends as launched. -/
theorem arg_kept {s : MemSt nD τ sig (Elt F)}
    (h : ∀ c : Dev nD, ∀ b ∈ Pipeline.ucRefs τ sig, s.mem (((c : Thread nD τ)).1, b) = W5 m ρ c b) (r : Ref sig .tc) (hr : r ∈ args) :
    s.mem ((c : Thread nD τ).loc r) = m ((c : Thread nD τ).loc r) :=
  have k := (by decide : ∀ r ∈ args, ¬ (Proc.devRef .tc r : DevRef τ sig).isScoped ∧ r ∉ hostOps0_W ∧ r ∉ hostOps1_W ∧ r ∉ hostOps2_W ∧
    (∀ w, Pipeline.arrRef spec0 w ≠ r) ∧ ∀ w, Pipeline.arrRef spec1 w ≠ r) r hr
  (h c _ (mem_uc r k.1)).trans <| (StableHlo.after_of_writes_sub hostOps2 _ hostOps_writes.2.2 k.2.2.2.1).trans <|
    (W4_of_ne m ρ c r k.2.2.2.2.2).trans <| (W3_of m ρ c r k.2.2.1).trans <| (W2_of_ne m ρ c r k.2.2.2.2.1).trans <|
      StableHlo.after_of_writes_sub hostOps0 _ hostOps_writes.1 k.2.1

end

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

set_option backward.isDefEq.respectTransparency.types false in
/-- A kernel call as one segment of the run, from the contents `Wi` to the contents `Wo`. -/
def reg (p : Fin 2) (lf : Pipeline.LaunchFacts (nD := nD) (τ := τ) cfgs p) (Wi Wo : Dev nD → Valuation τ sig (Elt F))
    (hq : ∀ c w, (pdats m ρ p c).q w = fullShare) (h0 : ∀ c t, (pdats m ρ p c).owed t = 0)
    (hr : ∀ c, (pdats m ρ p c).recorded 0 = Set.univ)
    (hA : ∀ c w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hne : ∀ c b, (∀ w, Pipeline.arrRef (cfgs p).spec w ≠ b) → Wo c (Proc.devRef .tc b) = Wi c (Proc.devRef .tc b))
    (hb : ∀ c, BodyObligation (pdats m ρ p c) defs₀ 𝒱₀ () Set.univ)
    (hI : ∀ c, (Pipeline.ΦA (cfgs p).spec c : sProp 𝕄) ⊢ (pdats m ρ p c).Φ 0)
    (hO : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := T Wi
  post := T Wo
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro; iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [h0 c, hr c]
    icases HO with ⟨%W, HO⟩; iexists W; iframe HO; ipureintro; exact fun _ _ => Or.inl trivial
  hin c := by
    refine .trans ?_ (hI c)
    unfold Pipeline.ΦA; iintro ⟨Hp, -, Hr⟩; isplitl [Hr] <;> iassumption
  hout c := by
    rw [Pipeline.ownSems0_none]; refine (hO c).trans ?_
    unfold Pipeline.ΦA; iintro ⟨Hr, Hp⟩; isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (fun w => (hF c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c]
    icases HO with ⟨%W, -, HO⟩; iexists W; iexact HO

abbrev segs : List (Pipeline.Seg (pcfgs (F := F)) adm (pdats m ρ) () defs₀ 𝒱₀ L lv) :=
  [ .host (hseg hostOps0 hostOps0_sub hostOps_fresh.1 (W0 m ρ)),
    .region (reg m ρ 0 launch0 (W1 m ρ) (W2 m ρ) (fun _ _ => rfl) (fun _ _ => rfl) (fun _ => rfl) (fun _ _ => rfl)
      (W2_arr m ρ) (W2_of_ne m ρ) (R0.body_obligation0 (V1 m ρ)) (R0.hin0 (V1 m ρ)) (R0.hout0 (V1 m ρ))),
    .host (hseg hostOps1 hostOps1_sub hostOps_fresh.2.1 (W2 m ρ)),
    .region (reg m ρ 1 launch1 (W3 m ρ) (W4 m ρ) (fun _ _ => rfl) (fun _ _ => rfl) (fun _ => rfl) (fun _ _ => rfl)
      (W4_arr m ρ) (W4_of_ne m ρ) (R1.body_obligation1 (V3 m ρ)) (R1.hin1 (V3 m ρ)) (R1.hout1 (V3 m ρ))),
    .host (hseg hostOps2 hostOps2_sub hostOps_fresh.2.2 (W4 m ρ)) ]

theorem main_run (c : Dev nD) : main (F := F) c = Pipeline.Seg.run (segs m ρ) := (main_chain c).trans (by chain_rfl)

set_option backward.isDefEq.respectTransparency.types false in
/-- Every weakly fair execution terminates, and ends with every buffer at the last boundary's contents. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

end Cert.Kernel.Run

end
-- ==== Proof.KI.R1Runs.lean ====
import proofs.«426955_j43147241456154_3_alg».proof.Proof.Gen.KernelIdeal.Launch
import proofs.«426955_j43147241456154_3_alg».proof.Proof.Gen.KernelIdeal.Skeleton
import proofs.«426955_j43147241456154_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array in `V` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- Decided over the grid's 64 points. -/
theorem liveAt1 : ∀ w : Fin cfg1.W, w.val < 9 → ∀ t : Fin cfg1.N, cfg1.idle w (grid1.coords t) = false := by decide +kernel
theorem idle1_9 : ∀ t : Fin cfg1.N, cfg1.idle 9 (grid1.coords t) = true ↔ ¬t.val % 4 = 3 := by decide +kernel

abbrev ms1_0 (t : Fin cfg1.N) : Memref sig .tc .vmem S32x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S27x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x75x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S32x1 .f32 := win1_9.stage (cfg1.slots t 9)
abbrev hs1_9 (t : Fin cfg1.N) : (ms1_9 t).IsWhole := hstage1_9 ((cfg1.slots t 9).cast nbuf1_9)
abbrev scM1_0 : Memref sig .tc .vmem S32x1 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

/-- The scratch is one of the scoped buffers the invariant names: split off. -/
theorem PhiA1_eq (c : Dev nD) :
    (Pipeline.ΦA spec1 c : sProp 𝕄) = iprop(((∃ d, owns (c : Thread nD τ) scM1_0 fullShare d) ∗ rest1 (F := F) c) ∗ ∃ r, prngReg c r) := by
  unfold Pipeline.ΦA; rw [Pipeline.scopedRest_split_of_list spec1 c [cc1_scratch0] (by decide) (by decide)]
  simp only [scM1_0, owns_whole]; try rfl

/-- Pieces that cover the shape determine what is read back: their canon. -/
theorem owns_canon (c : Dev nD) {sh : Shape} {e : EltTy} (m : Memref sig .tc .vmem sh e) (L : List (View.Piece (Elt F) sh e))
    (hL : ∀ y, ∃ p ∈ L, y ∈ p.1.set) :
    iprop(∃ f, m.view.loc (c : Thread nD τ) ↦[m.view.set]{fullShare} m.view.writes (Elt F) f L) ⊢ (owns (c : Thread nD τ) m fullShare (View.canon L) : sProp 𝕄) := by
  unfold owns; iintro ⟨%f, H⟩; iexists _; isplitr
  swap; · iexact H
  ipureintro; exact View.read_writes_eq_canon _ _ _ hL

end Cert.KernelIdeal.R1

end
-- ==== Proof.KI.R0Runs.lean ====
import proofs.«426955_j43147241456154_3_alg».proof.Proof.KI.R1Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

/-- Decided over the grid's 64 points. -/
theorem liveAt0 : ∀ w : Fin cfg0.W, w.val < 5 → ∀ t : Fin cfg0.N, cfg0.idle w (grid0.coords t) = false := by decide +kernel
theorem idle0_5 : ∀ t : Fin cfg0.N, cfg0.idle 5 (grid0.coords t) = true ↔ ¬t.val % 4 = 3 := by decide +kernel

abbrev ms0_0 (t : Fin cfg0.N) : Memref sig .tc .vmem S32x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S27x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1 .f32 := win0_5.stage (cfg0.slots t 5)
abbrev hs0_5 (t : Fin cfg0.N) : (ms0_5 t).IsWhole := hstage0_5 ((cfg0.slots t 5).cast nbuf0_5)
abbrev scM0_0 : Memref sig .tc .vmem S32x1 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

/-- The scratch is one of the scoped buffers the invariant names: split off. -/
theorem PhiA0_eq (c : Dev nD) :
    (Pipeline.ΦA spec0 c : sProp 𝕄) = iprop(((∃ d, owns (c : Thread nD τ) scM0_0 fullShare d) ∗ rest0 (F := F) c) ∗ ∃ r, prngReg c r) := by
  unfold Pipeline.ΦA; rw [Pipeline.scopedRest_split_of_list spec0 c [cc0_scratch0] (by decide) (by decide)]
  simp only [scM0_0, owns_whole]; try rfl

end Cert.KernelIdeal.R0

end
-- ==== Proof.KI.R0RunA.lean ====
import proofs.«426955_j43147241456154_3_alg».proof.Proof.KI.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x1 .f32) (harg7 : arg7.IsWhole) (arg8 : Memref sig .tc .vmem S32x1 .f32) (harg8 : arg8.IsWhole) (hc0 : cond0_0 i) (hc1 : ¬cond0_1 i)
    (x0 : Vec F S32x3 .f32) (x1 : Vec F S3x128 .f32) (x2 : Vec F S27x3 .f32) (x3 : Vec F S32x1 .f32) (x4 : Vec F S1x128 .f32) :
    Σ' (L5 : List (View.Piece (Elt F) S32x1 .f32)), { LS0 : List (View.Piece (Elt F) S32x1 .f32) //
      ∀ (xi5 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__cn_kernel_body i arg2 harg2 arg3 harg3 arg4 harg4 arg5 harg5 arg6 harg6 arg7 harg7 arg8 harg8) K } := by
  refine ⟨[], ?_, fun xi5 E K => ?run⟩
  case run =>
    simp only [cc0__cn_kernel_body_eq_skeleton]; unfold cc0__cn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.R0

end
-- ==== Proof.KI.R0RunB.lean ====
import proofs.«426955_j43147241456154_3_alg».proof.Proof.KI.R0RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : ¬cond0_1 i)
    (x0 : Vec F S32x3 .f32) (x1 : Vec F S3x128 .f32) (x2 : Vec F S27x3 .f32) (x3 : Vec F S32x1 .f32) (x4 : Vec F S1x128 .f32) (xs0 : Vec F S32x1 .f32) :
    Σ' (L5 : List (View.Piece (Elt F) S32x1 .f32)), { LS0 : List (View.Piece (Elt F) S32x1 .f32) //
      ∀ (xi5 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__cn_kernel_body i arg2 harg2 arg3 harg3 arg4 harg4 arg5 harg5 arg6 harg6 arg7 harg7 arg8 harg8) K } := by
  refine ⟨[], ?_, fun xi5 E K => ?run⟩
  case run =>
    simp only [cc0__cn_kernel_body_eq_skeleton]; unfold cc0__cn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.R0

end
-- ==== Proof.KI.R0RunC.lean ====
import proofs.«426955_j43147241456154_3_alg».proof.Proof.KI.R0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : cond0_1 i)
    (x0 : Vec F S32x3 .f32) (x1 : Vec F S3x128 .f32) (x2 : Vec F S27x3 .f32) (x3 : Vec F S32x1 .f32) (x4 : Vec F S1x128 .f32) (xs0 : Vec F S32x1 .f32) :
    Σ' (L5 : List (View.Piece (Elt F) S32x1 .f32)), { LS0 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__cn_kernel_body i arg2 harg2 arg3 harg3 arg4 harg4 arg5 harg5 arg6 harg6 arg7 harg7 arg8 harg8) K } := by
  refine ⟨?_, ?_, fun E K => ?run⟩
  case run =>
    simp only [cc0__cn_kernel_body_eq_skeleton]; unfold cc0__cn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.R0

end
-- ==== Proof.KI.R0Body.lean ====
import proofs.«426955_j43147241456154_3_alg».proof.Proof.KI.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array in `V` at point `t`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three cases' runs at grid point `t`, by `t mod 4`: 0, then 1 or 2, then 3; `a` is the scratch the point starts from. -/
def runA (c : Dev nD) (t : Fin cfg0.N) (h0 : t.val % 4 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t)
def runB (c : Dev nD) (t : Fin cfg0.N) (h0 : ¬t.val % 4 = 0) (h1 : ¬t.val % 4 = 3) (a : Vec F S32x1 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (mt (hcond0_0 t).mp h0) (mt (hcond0_1 t).mp h1) (iblk0 V c 0 t) (iblk0 V c 1 t) (iblk0 V c 2 t) (iblk0 V c 3 t) (iblk0 V c 4 t) a
def runC (c : Dev nD) (t : Fin cfg0.N) (h1 : t.val % 4 = 3) (a : Vec F S32x1 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) a

/-- Each case's pieces tile the 32×1 shape, so they cover it. -/
theorem coverA (c : Dev nD) (t : Fin cfg0.N) (h0 : t.val % 4 = 0) : ∀ y : S32x1.Idx, ∃ p ∈ (runA V c t h0).2.1, y ∈ p.1.set :=
  View.cover_of_tiledL _ S32x1.size (by sl_kernel_rfl)
theorem coverB (c : Dev nD) (t : Fin cfg0.N) (h0 : ¬t.val % 4 = 0) (h1 : ¬t.val % 4 = 3) (a : Vec F S32x1 .f32) :
    ∀ y : S32x1.Idx, ∃ p ∈ (runB V c t h0 h1 a).2.1, y ∈ p.1.set :=
  View.cover_of_tiledL _ S32x1.size (by sl_kernel_rfl)
theorem coverC (c : Dev nD) (t : Fin cfg0.N) (h1 : t.val % 4 = 3) (a : Vec F S32x1 .f32) :
    (∀ y : S32x1.Idx, ∃ p ∈ (runC V c t h1 a).1, y ∈ p.1.set) ∧ ∀ y : S32x1.Idx, ∃ p ∈ (runC V c t h1 a).2.1, y ∈ p.1.set :=
  ⟨View.cover_of_tiledL _ S32x1.size (by sl_kernel_rfl), View.cover_of_tiledL _ S32x1.size (by sl_kernel_rfl)⟩

/-- What the body at point `t` leaves in the output window and in the scratch, from the scratch `a`: its case's pieces' canons. -/
def stepAt (c : Dev nD) (t : Fin cfg0.N) (a : Vec F S32x1 .f32) : Vec F S32x1 .f32 × Vec F S32x1 .f32 :=
  if h0 : t.val % 4 = 0 then (View.canon (runA V c t h0).1, View.canon (runA V c t h0).2.1)
  else if h1 : t.val % 4 = 3 then (View.canon (runC V c t h1 a).1, View.canon (runC V c t h1 a).2.1)
  else (View.canon (runB V c t h0 h1 a).1, View.canon (runB V c t h0 h1 a).2.1)

/-- THE ACCUMULATION: the output window and the scratch after position `n`, by recursion along the points. -/
def outsAt0 (c : Dev nD) : (n : ℕ) → n < cfg0.N → Vec F S32x1 .f32 × Vec F S32x1 .f32
  | 0, hn => stepAt V c ⟨0, hn⟩ (k0_pay1 (F := F))
  | n + 1, hn => stepAt V c ⟨n + 1, hn⟩ (outsAt0 c n (Nat.lt_of_succ_lt hn)).2

/-- The scratch position `n` starts from (case A, at position 0, reads nothing of it). -/
def accB (c : Dev nD) : (n : ℕ) → n ≤ cfg0.N → Vec F S32x1 .f32
  | 0, _ => k0_pay1 (F := F)
  | n + 1, hn => (outsAt0 V c n hn).2

theorem outsAt0_eq (c : Dev nD) (t : Fin cfg0.N) :
    outsAt0 V c t.val t.isLt = stepAt V c t (accB V c t.val (Nat.le_of_lt t.isLt)) := by
  obtain ⟨_ | n, hn⟩ := t <;> rfl

theorem outs_A (c : Dev nD) (t : Fin cfg0.N) (h0 : t.val % 4 = 0) :
    outsAt0 V c t.val t.isLt = (View.canon (runA V c t h0).1, View.canon (runA V c t h0).2.1) :=
  (outsAt0_eq V c t).trans (dif_pos h0)
theorem outs_B (c : Dev nD) (t : Fin cfg0.N) (h0 : ¬t.val % 4 = 0) (h1 : ¬t.val % 4 = 3) :
    outsAt0 V c t.val t.isLt = (View.canon (runB V c t h0 h1 (accB V c t.val (Nat.le_of_lt t.isLt))).1, View.canon (runB V c t h0 h1 (accB V c t.val (Nat.le_of_lt t.isLt))).2.1) :=
  (outsAt0_eq V c t).trans ((dif_neg h0).trans (dif_neg h1))
theorem outs_C (c : Dev nD) (t : Fin cfg0.N) (h1 : t.val % 4 = 3) :
    outsAt0 V c t.val t.isLt = (View.canon (runC V c t h1 (accB V c t.val (Nat.le_of_lt t.isLt))).1, View.canon (runC V c t h1 (accB V c t.val (Nat.le_of_lt t.isLt))).2.1) :=
  (outsAt0_eq V c t).trans ((dif_neg (by omega)).trans (dif_pos h1))

/-- The scratch before position `n`: at anything before the first point, then at what the point before left. -/
def scrAt (c : Dev nD) : (n : ℕ) → n ≤ cfg0.N → sProp 𝕄
  | 0, _ => iprop(∃ d, owns (c : Thread nD τ) scM0_0 fullShare d)
  | n + 1, hn => owns (c : Thread nD τ) scM0_0 fullShare (accB V c (n + 1) hn)

theorem scrAt_any (c : Dev nD) (n : ℕ) (h : n ≤ cfg0.N) : scrAt V c n h ⊢ iprop(∃ d, owns (c : Thread nD τ) scM0_0 fullShare d) := by
  cases n with
  | zero => exact Idealize.SL.BI.Entails.refl _
  | succ n => unfold scrAt; iintro H; iexists _; iexact H

theorem scrAt_pos (c : Dev nD) (n : ℕ) (h : n ≤ cfg0.N) (hz : n ≠ 0) :
    scrAt V c n h ⊢ owns (c : Thread nD τ) scM0_0 fullShare (accB V c n h) := by
  cases n with
  | zero => exact absurd rfl hz
  | succ n => exact Idealize.SL.BI.Entails.refl _

/-- The region's invariant before position `n`. -/
def PhiS (c : Dev nD) (n : ℕ) (h : n ≤ cfg0.N) : sProp 𝕄 :=
  iprop((scrAt V c n h ∗ rest0 (F := F) c) ∗ ∃ r, prngReg c r)

/-- The proof data: the arrays in `V`; each input's block and `outsAt0`'s first component after the body; `PhiS`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_5 (c : Dev nD) (t : Fin cfg0.N) : (dat0 V c).after 5 t = (outsAt0 V c t.val t.isLt).1 := by dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

/-- Every input's block is what the body starts from and what it leaves. -/
theorem io0 (c : Dev nD) (t : Fin cfg0.N) :
    ((∀ d, (dat0 V c).before 0 t d = iblk0 V c 0 t) ∧ (dat0 V c).leavesExact 0 t = owns (c : Thread nD τ) (ms0_0 t) fullShare (iblk0 V c 0 t))
    ∧ ((∀ d, (dat0 V c).before 1 t d = iblk0 V c 1 t) ∧ (dat0 V c).leavesExact 1 t = owns (c : Thread nD τ) (ms0_1 t) fullShare (iblk0 V c 1 t))
    ∧ ((∀ d, (dat0 V c).before 2 t d = iblk0 V c 2 t) ∧ (dat0 V c).leavesExact 2 t = owns (c : Thread nD τ) (ms0_2 t) fullShare (iblk0 V c 2 t))
    ∧ ((∀ d, (dat0 V c).before 3 t d = iblk0 V c 3 t) ∧ (dat0 V c).leavesExact 3 t = owns (c : Thread nD τ) (ms0_3 t) fullShare (iblk0 V c 3 t))
    ∧ ((∀ d, (dat0 V c).before 4 t d = iblk0 V c 4 t) ∧ (dat0 V c).leavesExact 4 t = owns (c : Thread nD τ) (ms0_4 t) fullShare (iblk0 V c 4 t)) := by
  refine ⟨?_, ?_, ?_, ?_, ?_⟩ <;> exact
    ⟨fun d => ((dat0 V c).before_in_eq_fetched _ rfl (fun _ => rfl) (fun _ _ _ => rfl) (fun t => by unfold Dat.blockOf; dsimp only [dat0, iblk0]; try rfl) t d).trans
      (by unfold Dat.fetched Dat.blockOf; dsimp only [dat0, iblk0]; try rfl),
     by unfold Dat.leavesExact; rw [liveAt0]; · dsimp only [dat0]; try rfl
        · decide⟩

/-- The body at any point: its case by `t mod 4`; that case's run, framed by the rest of the invariant. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨⟨b0, l0⟩, ⟨b1, l1⟩, ⟨b2, l2⟩, ⟨b3, l3⟩, ⟨b4, l4⟩⟩ := io0 V c t
  simp only [b0, b1, b2, b3, b4]
  rw [show (dat0 V c).owesAt () t.succ = (dat0 V c).owesAt () t.castSucc from rfl,
    show (dat0 V c).Φ t.succ = PhiS V c (t.val + 1) t.isLt from rfl, PhiS_castSucc V c t, l0, l1, l2, l3, l4]
  unfold PhiS
  rw [show scrAt V c (t.val + 1) t.isLt = owns (c : Thread nD τ) scM0_0 fullShare (outsAt0 V c t.val t.isLt).2 from rfl]
  iintro ⟨⟨⟨HS, Hr⟩, Hg⟩, Ho, ⟨%d0, H0⟩, ⟨%d1, H1⟩, ⟨%d2, H2⟩, ⟨%d3, H3⟩, ⟨%d4, H4⟩, ⟨%d5, H5⟩⟩
  by_cases h0 : t.val % 4 = 0
  · have h1 : ¬t.val % 4 = 3 := by omega
    rw [Dat.leavesExact_idle (dat0 V c) 5 t ((idle0_5 t).mpr h1) (Bool.eq_false_iff.mpr fun h => h1 ((flush0_5 t).mp h)), outs_A V c t h0]
    iapply ((runA V c t h0).2.2 ((dat0 V c).before 5 t d5) Set.univ _)
    iframe H0 H1 H2 H3 H4 H5
    isplitl [HS]; · iapply (scrAt_any V c _ _) $$ HS
    iintro ⟨H0, H1, H2, H3, H4, H5, HS⟩
    iframe Hr Hg Ho H0 H1 H2 H3 H4
    isplitl [HS]; · iapply (R1.owns_canon c _ _ (coverA V c t h0)) $$ HS
    iexists _; iexact H5
  · have hz : t.val ≠ 0 := by omega
    by_cases h1 : t.val % 4 = 3
    · rw [show (dat0 V c).leavesExact 5 t = owns (c : Thread nD τ) (ms0_5 t) fullShare ((dat0 V c).after 5 t) from by
        unfold Dat.leavesExact; rw [Bool.eq_false_iff.mpr fun h => (idle0_5 t).mp h h1], after0_5, outs_C V c t h1]
      iapply ((runC V c t h1 _).2.2 Set.univ _)
      iframe H0 H1 H2 H3 H4
      isplitl [H5]; · iexists _; iexact H5
      isplitl [HS]; · iapply (scrAt_pos V c _ _ hz) $$ HS
      iintro ⟨H0, H1, H2, H3, H4, H5, HS⟩
      iframe Hr Hg Ho H0 H1 H2 H3 H4
      isplitl [HS]; · iapply (R1.owns_canon c _ _ (coverC V c t h1 _).2) $$ HS
      iapply (R1.owns_canon c _ _ (coverC V c t h1 _).1) $$ H5
    · rw [Dat.leavesExact_idle (dat0 V c) 5 t ((idle0_5 t).mpr h1) (Bool.eq_false_iff.mpr fun h => h1 ((flush0_5 t).mp h)), outs_B V c t h0 h1]
      iapply ((runB V c t h0 h1 _).2.2 ((dat0 V c).before 5 t d5) Set.univ _)
      iframe H0 H1 H2 H3 H4 H5
      isplitl [HS]; · iapply (scrAt_pos V c _ _ hz) $$ HS
      iintro ⟨H0, H1, H2, H3, H4, H5, HS⟩
      iframe Hr Hg Ho H0 H1 H2 H3 H4
      isplitl [HS]; · iapply (R1.owns_canon c _ _ (coverB V c t h0 h1 _)) $$ HS
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Entails.of_eq (PhiA0_eq c)

theorem hout0 (c : Dev nD) : (dat0 V c).Φ (Fin.last cfg0.N) ⊢ Pipeline.ΦA spec0 c :=
  (sep_mono_left (sep_mono_left (scrAt_any V c _ _))).trans (Entails.of_eq (PhiA0_eq c).symm)

end Cert.KernelIdeal.R0

end
-- ==== Proof.KI.R1RunA.lean ====
import proofs.«426955_j43147241456154_3_alg».proof.Proof.KI.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x75x128 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S1x128 .f32) (harg10 : arg10.IsWhole) (arg11 : Memref sig .tc .vmem S32x1 .f32) (harg11 : arg11.IsWhole) (arg12 : Memref sig .tc .vmem S32x1 .f32) (harg12 : arg12.IsWhole) (hc0 : cond1_0 i) (hc1 : ¬cond1_1 i)
    (x0 : Vec F S32x3 .f32) (x1 : Vec F S3x128 .f32) (x2 : Vec F S27x3 .f32) (x3 : Vec F S32x1 .f32) (x4 : Vec F S1x128 .f32) (x5 : Vec F S32x75x128 .f32) (x6 : Vec F S32x128 .f32) (x7 : Vec F S32x1 .f32) (x8 : Vec F S1x128 .f32) :
    Σ' (L9 : List (View.Piece (Elt F) S32x1 .f32)), { LS0 : List (View.Piece (Elt F) S32x1 .f32) //
      ∀ (xi9 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__energy_kernel_body i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc1__energy_kernel_body_eq_skeleton]; unfold cc1__energy_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.R1

end
-- ==== Proof.KI.R1RunB.lean ====
import proofs.«426955_j43147241456154_3_alg».proof.Proof.KI.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x75x128 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S1x128 .f32) (harg10 : arg10.IsWhole) (arg11 : Memref sig .tc .vmem S32x1 .f32) (harg11 : arg11.IsWhole) (arg12 : Memref sig .tc .vmem S32x1 .f32) (harg12 : arg12.IsWhole) (hc0 : ¬cond1_0 i) (hc1 : ¬cond1_1 i)
    (x0 : Vec F S32x3 .f32) (x1 : Vec F S3x128 .f32) (x2 : Vec F S27x3 .f32) (x3 : Vec F S32x1 .f32) (x4 : Vec F S1x128 .f32) (x5 : Vec F S32x75x128 .f32) (x6 : Vec F S32x128 .f32) (x7 : Vec F S32x1 .f32) (x8 : Vec F S1x128 .f32) (xs0 : Vec F S32x1 .f32) :
    Σ' (L9 : List (View.Piece (Elt F) S32x1 .f32)), { LS0 : List (View.Piece (Elt F) S32x1 .f32) //
      ∀ (xi9 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__energy_kernel_body i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc1__energy_kernel_body_eq_skeleton]; unfold cc1__energy_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.R1

end
-- ==== Proof.KI.R1RunC.lean ====
import proofs.«426955_j43147241456154_3_alg».proof.Proof.KI.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (arg2 : Memref sig .tc .vmem S32x3 .f32) (harg2 : arg2.IsWhole) (arg3 : Memref sig .tc .vmem S3x128 .f32) (harg3 : arg3.IsWhole) (arg4 : Memref sig .tc .vmem S27x3 .f32) (harg4 : arg4.IsWhole) (arg5 : Memref sig .tc .vmem S32x1 .f32) (harg5 : arg5.IsWhole) (arg6 : Memref sig .tc .vmem S1x128 .f32) (harg6 : arg6.IsWhole) (arg7 : Memref sig .tc .vmem S32x75x128 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S1x128 .f32) (harg10 : arg10.IsWhole) (arg11 : Memref sig .tc .vmem S32x1 .f32) (harg11 : arg11.IsWhole) (arg12 : Memref sig .tc .vmem S32x1 .f32) (harg12 : arg12.IsWhole) (hc0 : ¬cond1_0 i) (hc1 : cond1_1 i)
    (x0 : Vec F S32x3 .f32) (x1 : Vec F S3x128 .f32) (x2 : Vec F S27x3 .f32) (x3 : Vec F S32x1 .f32) (x4 : Vec F S1x128 .f32) (x5 : Vec F S32x75x128 .f32) (x6 : Vec F S32x128 .f32) (x7 : Vec F S32x1 .f32) (x8 : Vec F S1x128 .f32) (xs0 : Vec F S32x1 .f32) :
    Σ' (L9 : List (View.Piece (Elt F) S32x1 .f32)), { LS0 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1__energy_kernel_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__energy_kernel_body_eq_skeleton]; unfold cc1__energy_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.KernelIdeal.R1

end
-- ==== Proof.KI.R1Body.lean ====
import proofs.«426955_j43147241456154_3_alg».proof.Proof.KI.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three cases' runs at grid point `t`, by `t mod 4`: 0, then 1 or 2, then 3; `a` is the scratch the point starts from. -/
def runA (c : Dev nD) (t : Fin cfg1.N) (h0 : t.val % 4 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t) (iblk1 V c 5 t) (iblk1 V c 6 t) (iblk1 V c 7 t) (iblk1 V c 8 t)
def runB (c : Dev nD) (t : Fin cfg1.N) (h0 : ¬t.val % 4 = 0) (h1 : ¬t.val % 4 = 3) (a : Vec F S32x1 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (mt (hcond1_0 t).mp h0) (mt (hcond1_1 t).mp h1) (iblk1 V c 0 t) (iblk1 V c 1 t) (iblk1 V c 2 t) (iblk1 V c 3 t) (iblk1 V c 4 t) (iblk1 V c 5 t) (iblk1 V c 6 t) (iblk1 V c 7 t) (iblk1 V c 8 t) a
def runC (c : Dev nD) (t : Fin cfg1.N) (h1 : t.val % 4 = 3) (a : Vec F S32x1 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => absurd ((hcond1_0 t).mp h) (by omega)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) a

/-- Each case's pieces tile the 32×1 shape, so they cover it. -/
theorem coverA (c : Dev nD) (t : Fin cfg1.N) (h0 : t.val % 4 = 0) : ∀ y : S32x1.Idx, ∃ p ∈ (runA V c t h0).2.1, y ∈ p.1.set :=
  View.cover_of_tiledL _ S32x1.size (by sl_kernel_rfl)
theorem coverB (c : Dev nD) (t : Fin cfg1.N) (h0 : ¬t.val % 4 = 0) (h1 : ¬t.val % 4 = 3) (a : Vec F S32x1 .f32) :
    ∀ y : S32x1.Idx, ∃ p ∈ (runB V c t h0 h1 a).2.1, y ∈ p.1.set :=
  View.cover_of_tiledL _ S32x1.size (by sl_kernel_rfl)
theorem coverC (c : Dev nD) (t : Fin cfg1.N) (h1 : t.val % 4 = 3) (a : Vec F S32x1 .f32) :
    (∀ y : S32x1.Idx, ∃ p ∈ (runC V c t h1 a).1, y ∈ p.1.set) ∧ ∀ y : S32x1.Idx, ∃ p ∈ (runC V c t h1 a).2.1, y ∈ p.1.set :=
  ⟨View.cover_of_tiledL _ S32x1.size (by sl_kernel_rfl), View.cover_of_tiledL _ S32x1.size (by sl_kernel_rfl)⟩

/-- What the body at point `t` leaves in the output window and in the scratch, from the scratch `a`: its case's pieces' canons. -/
def stepAt (c : Dev nD) (t : Fin cfg1.N) (a : Vec F S32x1 .f32) : Vec F S32x1 .f32 × Vec F S32x1 .f32 :=
  if h0 : t.val % 4 = 0 then (View.canon (runA V c t h0).1, View.canon (runA V c t h0).2.1)
  else if h1 : t.val % 4 = 3 then (View.canon (runC V c t h1 a).1, View.canon (runC V c t h1 a).2.1)
  else (View.canon (runB V c t h0 h1 a).1, View.canon (runB V c t h0 h1 a).2.1)

/-- THE ACCUMULATION: the output window and the scratch after position `n`, by recursion along the points. -/
def outsAt1 (c : Dev nD) : (n : ℕ) → n < cfg1.N → Vec F S32x1 .f32 × Vec F S32x1 .f32
  | 0, hn => stepAt V c ⟨0, hn⟩ (k1_pay2 (F := F))
  | n + 1, hn => stepAt V c ⟨n + 1, hn⟩ (outsAt1 c n (Nat.lt_of_succ_lt hn)).2

/-- The scratch position `n` starts from (case A, at position 0, reads nothing of it). -/
def accB (c : Dev nD) : (n : ℕ) → n ≤ cfg1.N → Vec F S32x1 .f32
  | 0, _ => k1_pay2 (F := F)
  | n + 1, hn => (outsAt1 V c n hn).2

theorem outsAt1_eq (c : Dev nD) (t : Fin cfg1.N) :
    outsAt1 V c t.val t.isLt = stepAt V c t (accB V c t.val (Nat.le_of_lt t.isLt)) := by
  obtain ⟨_ | n, hn⟩ := t <;> rfl

theorem outs_A (c : Dev nD) (t : Fin cfg1.N) (h0 : t.val % 4 = 0) :
    outsAt1 V c t.val t.isLt = (View.canon (runA V c t h0).1, View.canon (runA V c t h0).2.1) :=
  (outsAt1_eq V c t).trans (dif_pos h0)
theorem outs_B (c : Dev nD) (t : Fin cfg1.N) (h0 : ¬t.val % 4 = 0) (h1 : ¬t.val % 4 = 3) :
    outsAt1 V c t.val t.isLt = (View.canon (runB V c t h0 h1 (accB V c t.val (Nat.le_of_lt t.isLt))).1, View.canon (runB V c t h0 h1 (accB V c t.val (Nat.le_of_lt t.isLt))).2.1) :=
  (outsAt1_eq V c t).trans ((dif_neg h0).trans (dif_neg h1))
theorem outs_C (c : Dev nD) (t : Fin cfg1.N) (h1 : t.val % 4 = 3) :
    outsAt1 V c t.val t.isLt = (View.canon (runC V c t h1 (accB V c t.val (Nat.le_of_lt t.isLt))).1, View.canon (runC V c t h1 (accB V c t.val (Nat.le_of_lt t.isLt))).2.1) :=
  (outsAt1_eq V c t).trans ((dif_neg (by omega)).trans (dif_pos h1))

/-- The scratch before position `n`: at anything before the first point, then at what the point before left. -/
def scrAt (c : Dev nD) : (n : ℕ) → n ≤ cfg1.N → sProp 𝕄
  | 0, _ => iprop(∃ d, owns (c : Thread nD τ) scM1_0 fullShare d)
  | n + 1, hn => owns (c : Thread nD τ) scM1_0 fullShare (accB V c (n + 1) hn)

theorem scrAt_any (c : Dev nD) (n : ℕ) (h : n ≤ cfg1.N) : scrAt V c n h ⊢ iprop(∃ d, owns (c : Thread nD τ) scM1_0 fullShare d) := by
  cases n with
  | zero => exact Idealize.SL.BI.Entails.refl _
  | succ n => unfold scrAt; iintro H; iexists _; iexact H

theorem scrAt_pos (c : Dev nD) (n : ℕ) (h : n ≤ cfg1.N) (hz : n ≠ 0) :
    scrAt V c n h ⊢ owns (c : Thread nD τ) scM1_0 fullShare (accB V c n h) := by
  cases n with
  | zero => exact absurd rfl hz
  | succ n => exact Idealize.SL.BI.Entails.refl _

/-- The region's invariant before position `n`. -/
def PhiS (c : Dev nD) (n : ℕ) (h : n ≤ cfg1.N) : sProp 𝕄 :=
  iprop((scrAt V c n h ∗ rest1 (F := F) c) ∗ ∃ r, prngReg c r)

/-- The proof data: the arrays in `V`; each input's block and `outsAt1`'s first component after the body; `PhiS`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS V c t.val (Nat.le_of_lt_succ t.isLt)
  q _ := fullShare
  owed _ := 0

theorem PhiS_castSucc (c : Dev nD) (t : Fin cfg1.N) :
    (dat1 V c).Φ t.castSucc = PhiS V c t.val (Nat.le_of_lt t.isLt) := by
  dsimp only [dat1]; simp only [Fin.coe_castSucc]

theorem after1_9 (c : Dev nD) (t : Fin cfg1.N) : (dat1 V c).after 9 t = (outsAt1 V c t.val t.isLt).1 := by dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

/-- Every input's block is what the body starts from and what it leaves. -/
theorem io1 (c : Dev nD) (t : Fin cfg1.N) :
    ((∀ d, (dat1 V c).before 0 t d = iblk1 V c 0 t) ∧ (dat1 V c).leavesExact 0 t = owns (c : Thread nD τ) (ms1_0 t) fullShare (iblk1 V c 0 t))
    ∧ ((∀ d, (dat1 V c).before 1 t d = iblk1 V c 1 t) ∧ (dat1 V c).leavesExact 1 t = owns (c : Thread nD τ) (ms1_1 t) fullShare (iblk1 V c 1 t))
    ∧ ((∀ d, (dat1 V c).before 2 t d = iblk1 V c 2 t) ∧ (dat1 V c).leavesExact 2 t = owns (c : Thread nD τ) (ms1_2 t) fullShare (iblk1 V c 2 t))
    ∧ ((∀ d, (dat1 V c).before 3 t d = iblk1 V c 3 t) ∧ (dat1 V c).leavesExact 3 t = owns (c : Thread nD τ) (ms1_3 t) fullShare (iblk1 V c 3 t))
    ∧ ((∀ d, (dat1 V c).before 4 t d = iblk1 V c 4 t) ∧ (dat1 V c).leavesExact 4 t = owns (c : Thread nD τ) (ms1_4 t) fullShare (iblk1 V c 4 t))
    ∧ ((∀ d, (dat1 V c).before 5 t d = iblk1 V c 5 t) ∧ (dat1 V c).leavesExact 5 t = owns (c : Thread nD τ) (ms1_5 t) fullShare (iblk1 V c 5 t))
    ∧ ((∀ d, (dat1 V c).before 6 t d = iblk1 V c 6 t) ∧ (dat1 V c).leavesExact 6 t = owns (c : Thread nD τ) (ms1_6 t) fullShare (iblk1 V c 6 t))
    ∧ ((∀ d, (dat1 V c).before 7 t d = iblk1 V c 7 t) ∧ (dat1 V c).leavesExact 7 t = owns (c : Thread nD τ) (ms1_7 t) fullShare (iblk1 V c 7 t))
    ∧ ((∀ d, (dat1 V c).before 8 t d = iblk1 V c 8 t) ∧ (dat1 V c).leavesExact 8 t = owns (c : Thread nD τ) (ms1_8 t) fullShare (iblk1 V c 8 t)) := by
  refine ⟨?_, ?_, ?_, ?_, ?_, ?_, ?_, ?_, ?_⟩ <;> exact
    ⟨fun d => ((dat1 V c).before_in_eq_fetched _ rfl (fun _ => rfl) (fun _ _ _ => rfl) (fun t => by unfold Dat.blockOf; dsimp only [dat1, iblk1]; try rfl) t d).trans
      (by unfold Dat.fetched Dat.blockOf; dsimp only [dat1, iblk1]; try rfl),
     by unfold Dat.leavesExact; rw [liveAt1]; · dsimp only [dat1]; try rfl
        · decide⟩

set_option maxHeartbeats 8000000 in
/-- The body at any point: its case by `t mod 4`; that case's run, framed by the rest of the invariant. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨⟨b0, l0⟩, ⟨b1, l1⟩, ⟨b2, l2⟩, ⟨b3, l3⟩, ⟨b4, l4⟩, ⟨b5, l5⟩, ⟨b6, l6⟩, ⟨b7, l7⟩, ⟨b8, l8⟩⟩ := io1 V c t
  simp only [b0, b1, b2, b3, b4, b5, b6, b7, b8]
  rw [show (dat1 V c).owesAt () t.succ = (dat1 V c).owesAt () t.castSucc from rfl,
    show (dat1 V c).Φ t.succ = PhiS V c (t.val + 1) t.isLt from rfl, PhiS_castSucc V c t, l0, l1, l2, l3, l4, l5, l6, l7, l8]
  unfold PhiS
  rw [show scrAt V c (t.val + 1) t.isLt = owns (c : Thread nD τ) scM1_0 fullShare (outsAt1 V c t.val t.isLt).2 from rfl]
  iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 4 = 0
  · have h1 : ¬t.val % 4 = 3 := by omega
    rw [Dat.leavesExact_idle (dat1 V c) 9 t ((idle1_9 t).mpr h1) (Bool.eq_false_iff.mpr fun h => h1 ((flush1_9 t).mp h)), outs_A V c t h0]
    iapply ((runA V c t h0).2.2 ((dat1 V c).before 9 t d9) Set.univ _)
    iframe H0 H1 H2 H3 H4 H5 H6 H7 H8 H9
    isplitl [HS]; · iapply (scrAt_any V c _ _) $$ HS
    iintro ⟨H0, H1, H2, H3, H4, H5, H6, H7, H8, H9, HS⟩
    iframe Hr Hg Ho H0 H1 H2 H3 H4 H5 H6 H7 H8
    isplitl [HS]; · iapply (owns_canon c _ _ (coverA V c t h0)) $$ HS
    iexists _; iexact H9
  · have hz : t.val ≠ 0 := by omega
    by_cases h1 : t.val % 4 = 3
    · rw [show (dat1 V c).leavesExact 9 t = owns (c : Thread nD τ) (ms1_9 t) fullShare ((dat1 V c).after 9 t) from by
        unfold Dat.leavesExact; rw [Bool.eq_false_iff.mpr fun h => (idle1_9 t).mp h h1], after1_9, outs_C V c t h1]
      iapply ((runC V c t h1 _).2.2 Set.univ _)
      iframe H0 H1 H2 H3 H4 H5 H6 H7 H8
      isplitl [H9]; · iexists _; iexact H9
      isplitl [HS]; · iapply (scrAt_pos V c _ _ hz) $$ HS
      iintro ⟨H0, H1, H2, H3, H4, H5, H6, H7, H8, H9, HS⟩
      iframe Hr Hg Ho H0 H1 H2 H3 H4 H5 H6 H7 H8
      isplitl [HS]; · iapply (owns_canon c _ _ (coverC V c t h1 _).2) $$ HS
      iapply (owns_canon c _ _ (coverC V c t h1 _).1) $$ H9
    · rw [Dat.leavesExact_idle (dat1 V c) 9 t ((idle1_9 t).mpr h1) (Bool.eq_false_iff.mpr fun h => h1 ((flush1_9 t).mp h)), outs_B V c t h0 h1]
      iapply ((runB V c t h0 h1 _).2.2 ((dat1 V c).before 9 t d9) Set.univ _)
      iframe H0 H1 H2 H3 H4 H5 H6 H7 H8 H9
      isplitl [HS]; · iapply (scrAt_pos V c _ _ hz) $$ HS
      iintro ⟨H0, H1, H2, H3, H4, H5, H6, H7, H8, H9, HS⟩
      iframe Hr Hg Ho H0 H1 H2 H3 H4 H5 H6 H7 H8
      isplitl [HS]; · iapply (owns_canon c _ _ (coverB V c t h0 h1 _)) $$ HS
      iexists _; iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.of_eq (PhiA1_eq c)

theorem hout1 (c : Dev nD) : (dat1 V c).Φ (Fin.last cfg1.N) ⊢ Pipeline.ΦA spec1 c :=
  (sep_mono_left (sep_mono_left (scrAt_any V c _ _))).trans (Entails.of_eq (PhiA1_eq c).symm)

end Cert.KernelIdeal.R1

end
-- ==== Proof.KI.Run.lean ====
import proofs.«426955_j43147241456154_3_alg».proof.Proof.KI.R0Body
import proofs.«426955_j43147241456154_3_alg».proof.Proof.KI.R1Body

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (R0.dat0 (V1 m ρ) c).arrAt w cfg0.N
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (R1.dat1 (V3 m ρ) c).arrAt w cfg1.N
abbrev W5 : Dev nD → Valuation τ sig (Elt F) := fun c => StableHlo.after hostOps2 (W4 m ρ c)

section
variable (c : Dev nD)

theorem W2_arr (w : Fin cfg0.W) :
    W2 m ρ c (Proc.devRef .tc (Pipeline.arrRef spec0 w)) = (R0.dat0 (V1 m ρ) c).arrAt w cfg0.N :=
  Pipeline.withArrays_arr spec0 launch0.win.arr_inj c _ _ w
theorem W2_of_ne (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W4_arr (w : Fin cfg1.W) :
    W4 m ρ c (Proc.devRef .tc (Pipeline.arrRef spec1 w)) = (R1.dat1 (V3 m ρ) c).arrAt w cfg1.N :=
  Pipeline.withArrays_arr spec1 launch1.win.arr_inj c _ _ w
theorem W4_of_ne (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev hostOps0_W : List (Ref sig .tc) := [main_cst, main_v0, main_v1, main_v2, main_cst_0, main_v3, main_v4, main_v5, main_v6, main_c, main_v7, main_v8, main_c_1, main_v9, main_v10, main_v11, main_v12, main_v13, main_c_2, main_v14, main_v15, main_c_3, main_v16, main_v17, main_v18, main_v19, main_v20, main_v21, main_v22, main_v23, main_v24, main_v25, main_v26, main_v27, main_v28, main_c_4, main_v29, main_v30, main_c_5, main_v31, main_v32, main_v33, main_c_6, main_v34, main_v35, main_c_7, main_v36, main_v37, main_v38, main_v39, main_v40, main_v41, main_v42, main_v43, main_v44, main_v45, main_v46, main_v47, main_c_8, main_v48, main_v49, main_c_9, main_v50, main_v51, main_v52, main_c_10, main_v53, main_v54, main_c_11, main_v55, main_v56, main_v57, main_v58, main_v59, main_v60, main_v61, main_v62, main_v63]
abbrev hostOps1_W : List (Ref sig .tc) := [main_v65]
abbrev hostOps2_W : List (Ref sig .tc) := [main_cst_12, main_v67, main_cst_13, main_v68]

/-- Each host operation writes its own result only. -/
theorem hostOps_writes :
    ((hostOps0 : List (HloOp τ sig (Elt F))).Forall fun op => op.writes ⊆ (hostOps0_W.map (Proc.devRef (τ := τ) .tc)).toFinset) ∧
    ((hostOps1 : List (HloOp τ sig (Elt F))).Forall fun op => op.writes ⊆ (hostOps1_W.map (Proc.devRef (τ := τ) .tc)).toFinset) ∧
    ((hostOps2 : List (HloOp τ sig (Elt F))).Forall fun op => op.writes ⊆ (hostOps2_W.map (Proc.devRef (τ := τ) .tc)).toFinset) := by
  simp only [List.Forall]
  repeat' apply And.intro
  all_goals exact Finset.singleton_subset_iff.2 (List.mem_toFinset.2 (List.mem_map_of_mem (by decide)))
theorem hostOps_fresh :
    ((hostOps0 : List (HloOp τ sig (Elt F))).Forall fun op => op.fresh = ∅) ∧
    ((hostOps1 : List (HloOp τ sig (Elt F))).Forall fun op => op.fresh = ∅) ∧
    ((hostOps2 : List (HloOp τ sig (Elt F))).Forall fun op => op.fresh = ∅) := by
  simp only [List.Forall]; repeat' constructor

theorem W3_of (r : Ref sig .tc) (h : r ∉ hostOps1_W) : W3 m ρ c (Proc.devRef .tc r) = W2 m ρ c (Proc.devRef .tc r) :=
  StableHlo.after_of_writes_sub hostOps1 _ hostOps_writes.2.1 h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev args : List (Ref sig .tc) := [main_arg0, main_arg1, main_arg2, main_arg3, main_arg4, main_arg5, main_arg6, main_arg7]

/-- No host operation writes an argument array and neither call has one among its arrays: it ends as launched. -/
theorem arg_kept {s : MemSt nD τ sig (Elt F)}
    (h : ∀ c : Dev nD, ∀ b ∈ Pipeline.ucRefs τ sig, s.mem (((c : Thread nD τ)).1, b) = W5 m ρ c b) (r : Ref sig .tc) (hr : r ∈ args) :
    s.mem ((c : Thread nD τ).loc r) = m ((c : Thread nD τ).loc r) :=
  have k := (by decide : ∀ r ∈ args, ¬ (Proc.devRef .tc r : DevRef τ sig).isScoped ∧ r ∉ hostOps0_W ∧ r ∉ hostOps1_W ∧ r ∉ hostOps2_W ∧
    (∀ w, Pipeline.arrRef spec0 w ≠ r) ∧ ∀ w, Pipeline.arrRef spec1 w ≠ r) r hr
  (h c _ (mem_uc r k.1)).trans <| (StableHlo.after_of_writes_sub hostOps2 _ hostOps_writes.2.2 k.2.2.2.1).trans <|
    (W4_of_ne m ρ c r k.2.2.2.2.2).trans <| (W3_of m ρ c r k.2.2.1).trans <| (W2_of_ne m ρ c r k.2.2.2.2.1).trans <|
      StableHlo.after_of_writes_sub hostOps0 _ hostOps_writes.1 k.2.1

end

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

set_option backward.isDefEq.respectTransparency.types false in
/-- A kernel call as one segment of the run, from the contents `Wi` to the contents `Wo`. -/
def reg (p : Fin 2) (lf : Pipeline.LaunchFacts (nD := nD) (τ := τ) cfgs p) (Wi Wo : Dev nD → Valuation τ sig (Elt F))
    (hq : ∀ c w, (pdats m ρ p c).q w = fullShare) (h0 : ∀ c t, (pdats m ρ p c).owed t = 0)
    (hr : ∀ c, (pdats m ρ p c).recorded 0 = Set.univ)
    (hA : ∀ c w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hne : ∀ c b, (∀ w, Pipeline.arrRef (cfgs p).spec w ≠ b) → Wo c (Proc.devRef .tc b) = Wi c (Proc.devRef .tc b))
    (hb : ∀ c, BodyObligation (pdats m ρ p c) defs₀ 𝒱₀ () Set.univ)
    (hI : ∀ c, (Pipeline.ΦA (cfgs p).spec c : sProp 𝕄) ⊢ (pdats m ρ p c).Φ 0)
    (hO : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := T Wi
  post := T Wo
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro; iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [h0 c, hr c]
    icases HO with ⟨%W, HO⟩; iexists W; iframe HO; ipureintro; exact fun _ _ => Or.inl trivial
  hin c := by
    refine .trans ?_ (hI c)
    unfold Pipeline.ΦA; iintro ⟨Hp, -, Hr⟩; isplitl [Hr] <;> iassumption
  hout c := by
    rw [Pipeline.ownSems0_none]; refine (hO c).trans ?_
    unfold Pipeline.ΦA; iintro ⟨Hr, Hp⟩; isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (fun w => (hF c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c]
    icases HO with ⟨%W, -, HO⟩; iexists W; iexact HO

abbrev segs : List (Pipeline.Seg (pcfgs (F := F)) adm (pdats m ρ) () defs₀ 𝒱₀ L lv) :=
  [ .host (hseg hostOps0 hostOps0_sub hostOps_fresh.1 (W0 m ρ)),
    .region (reg m ρ 0 launch0 (W1 m ρ) (W2 m ρ) (fun _ _ => rfl) (fun _ _ => rfl) (fun _ => rfl) (fun _ _ => rfl)
      (W2_arr m ρ) (W2_of_ne m ρ) (R0.body_obligation0 (V1 m ρ)) (R0.hin0 (V1 m ρ)) (R0.hout0 (V1 m ρ))),
    .host (hseg hostOps1 hostOps1_sub hostOps_fresh.2.1 (W2 m ρ)),
    .region (reg m ρ 1 launch1 (W3 m ρ) (W4 m ρ) (fun _ _ => rfl) (fun _ _ => rfl) (fun _ => rfl) (fun _ _ => rfl)
      (W4_arr m ρ) (W4_of_ne m ρ) (R1.body_obligation1 (V3 m ρ)) (R1.hin1 (V3 m ρ)) (R1.hout1 (V3 m ρ))),
    .host (hseg hostOps2 hostOps2_sub hostOps_fresh.2.2 (W4 m ρ)) ]

theorem main_run (c : Dev nD) : main (F := F) c = Pipeline.Seg.run (segs m ρ) := (main_chain c).trans (by chain_rfl)

set_option backward.isDefEq.respectTransparency.types false in
/-- Every weakly fair execution terminates, and ends with every buffer at the last boundary's contents. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

end Cert.KernelIdeal.Run

end
-- ==== Proof.KI.R0Pieces.lean ====
import proofs.«426955_j43147241456154_3_alg».proof.Proof.KI.R0Body
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

def step0 (x0 : Vec F S32x3 .f32) (x1 : Vec F S3x128 .f32) (x2 : Vec F S27x3 .f32) (x3 : Vec F S32x1 .f32) (x4 : Vec F S1x128 .f32) (a : Vec F S32x1 .f32) : FVec F S32x1 .f32 :=
  k0_pay12 (k0_pay5 x3) (k0_pay6 x4) (k0_pay7 x2) (k0_pay8 x0 x1 x2) (k0_pay9 x0 x1 x2) (k0_pay10 x1) (k0_pay11 x0) a

theorem unread_scr (h : scM0_0.IsWhole) (a : Vec F S32x1 .f32) : h.unread a = a := h.unread_read a

/-- Each case's pieces cover the whole shape and carry the kernel's payload over the point's blocks: read off the run. -/
theorem canonB_eq (c : Dev nD) (t : Fin cfg0.N) (h0 : ¬t.val % 4 = 0) (h1 : ¬t.val % 4 = 3) (a : Vec F S32x1 .f32) :
    View.canon (runB V c t h0 h1 a).2.1 = step0 (iblk0 V c 0 t) (iblk0 V c 1 t) (iblk0 V c 2 t) (iblk0 V c 3 t) (iblk0 V c 4 t) a := by
  unfold runB kernelRun0_B
  dsimp only
  sl_unfold_words
  rw [View.canon_unit_zero hz2]
  simp only [View.readAt_eq_ld, Memref.IsWhole.read_unread, unread_scr, View.read_whole, View.ld_unit_zero (S := S32x3) hz2, View.ld_unit_zero (S := S3x128) hz2,
    View.ld_unit_zero (S := S27x3) hz2, View.ld_unit_zero (S := S32x1) hz2, View.ld_unit_zero (S := S1x128) hz2]
  rfl

theorem canonC_eq (c : Dev nD) (t : Fin cfg0.N) (h1 : t.val % 4 = 3) (a : Vec F S32x1 .f32) :
    View.canon (runC V c t h1 a).2.1 = step0 (iblk0 V c 0 t) (iblk0 V c 1 t) (iblk0 V c 2 t) (iblk0 V c 3 t) (iblk0 V c 4 t) a := by
  unfold runC kernelRun0_C
  dsimp only
  sl_unfold_words
  rw [View.canon_unit_zero hz2]
  simp only [View.readAt_eq_ld, Memref.IsWhole.read_unread, unread_scr, View.read_whole, View.ld_unit_zero (S := S32x3) hz2, View.ld_unit_zero (S := S3x128) hz2,
    View.ld_unit_zero (S := S27x3) hz2, View.ld_unit_zero (S := S32x1) hz2, View.ld_unit_zero (S := S1x128) hz2]
  rfl

theorem canonC5_eq (c : Dev nD) (t : Fin cfg0.N) (h1 : t.val % 4 = 3) (a : Vec F S32x1 .f32) :
    View.canon (runC V c t h1 a).1 = step0 (iblk0 V c 0 t) (iblk0 V c 1 t) (iblk0 V c 2 t) (iblk0 V c 3 t) (iblk0 V c 4 t) a := by
  unfold runC kernelRun0_C
  dsimp only
  sl_unfold_words
  rw [View.canon_unit_zero hz2, View.readCov_unit_zero (S := S32x1) _ hz2]
  simp only [View.readAt_eq_ld, Memref.IsWhole.read_unread, unread_scr, View.read_whole, View.ld_unit_zero (S := S32x3) hz2, View.ld_unit_zero (S := S3x128) hz2,
    View.ld_unit_zero (S := S27x3) hz2, View.ld_unit_zero (S := S32x1) hz2, View.ld_unit_zero (S := S1x128) hz2]
  rfl

theorem canonA_eq (c : Dev nD) (t : Fin cfg0.N) (h0 : t.val % 4 = 0) :
    View.canon (runA V c t h0).2.1 = step0 (iblk0 V c 0 t) (iblk0 V c 1 t) (iblk0 V c 2 t) (iblk0 V c 3 t) (iblk0 V c 4 t) (k0_pay1 (F := F)) := by
  unfold runA kernelRun0_A
  dsimp only
  sl_unfold_words
  rw [View.canon_cons_unit_zero (S := S32x1) hz2, View.readCov_unit_zero (S := S32x1) _ hz2]
  simp only [View.readAt_eq_ld, Memref.IsWhole.read_unread, unread_scr, View.read_whole, View.ld_unit_zero (S := S32x3) hz2, View.ld_unit_zero (S := S3x128) hz2,
    View.ld_unit_zero (S := S27x3) hz2, View.ld_unit_zero (S := S32x1) hz2, View.ld_unit_zero (S := S1x128) hz2]
  rfl

/-- So the scratch is reset at the points ≡ 0 (mod 4), stepped from the point before at the others, and copied out at the points ≡ 3. -/
theorem scr0_reset (c : Dev nD) (t : Fin cfg0.N) (h : t.val % 4 = 0) :
    (outsAt0 V c t.val t.isLt).2 = step0 (iblk0 V c 0 t) (iblk0 V c 1 t) (iblk0 V c 2 t) (iblk0 V c 3 t) (iblk0 V c 4 t) (k0_pay1 (F := F)) :=
  (congrArg Prod.snd (outs_A V c t h)).trans (canonA_eq V c t h)

theorem scr0_step (c : Dev nD) (t : Fin cfg0.N) (h : ¬t.val % 4 = 0) :
    (outsAt0 V c t.val t.isLt).2 = step0 (iblk0 V c 0 t) (iblk0 V c 1 t) (iblk0 V c 2 t) (iblk0 V c 3 t) (iblk0 V c 4 t) (accB V c t.val (Nat.le_of_lt t.isLt)) := by
  by_cases h1 : t.val % 4 = 3
  · exact (congrArg Prod.snd (outs_C V c t h1)).trans (canonC_eq V c t h1 _)
  · exact (congrArg Prod.snd (outs_B V c t h h1)).trans (canonB_eq V c t h h1 _)

theorem out0_last (c : Dev nD) (t : Fin cfg0.N) (h : t.val % 4 = 3) :
    (outsAt0 V c t.val t.isLt).1 = (outsAt0 V c t.val t.isLt).2 := by
  rw [outs_C V c t h]; exact (canonC5_eq V c t h _).trans (canonC_eq V c t h _).symm

end Cert.KernelIdeal.R0

end
-- ==== Proof.Spec.lean ====
import Idealize.ShloMosaic.PureOps.Ideal
import Mathlib.Algebra.BigOperators.Fin
import Mathlib.Order.Interval.Finset.Fin

noncomputable section

namespace Cert.Spec

open Idealize.ShloMosaic

abbrev lit (w : BitVec 32) : EReal := Ideal.ofBits .f32 w

abbrev zero : EReal := lit 0x00000000#32
abbrev one : EReal := lit 0x3F800000#32
abbrev six : EReal := lit 0x40C00000#32

structure Inp where
  P  : Fin 512 → Fin 3 → EReal
  Sh : Fin 27 → Fin 3 → EReal
  RC : Fin 512 → EReal
  R4 : Fin 512 → EReal
  T  : Fin 512 → Fin 512 → Fin 3 → Fin 5 → Fin 5 → EReal
  R0 : Fin 512 → Fin 512 → EReal

variable (I : Inp)

def jOf (jt : Fin 4) (l : Fin 128) : Fin 512 := ⟨128 * jt.val + l.val, by omega⟩

def iOf (it : Fin 16) (p : Fin 32) : Fin 512 := ⟨32 * it.val + p.val, by omega⟩

def dd (i j : Fin 512) (s : Fin 27) (k : Fin 3) : EReal := (I.P j k - I.P i k) + I.Sh s k

def r2 (i j : Fin 512) (s : Fin 27) : EReal :=
  (dd I i j s 0 * dd I i j s 0 + dd I i j s 1 * dd I i j s 1) + dd I i j s 2 * dd I i j s 2

def pm (i j : Fin 512) (s : Fin 27) : BitVec 1 := Ideal.cmp .ogt (r2 I i j s) (lit 0x322BCC77#32)

def r2s (i j : Fin 512) (s : Fin 27) : EReal := Scalar.select (pm I i j s) (r2 I i j s) one

def rr (i j : Fin 512) (s : Fin 27) : EReal := Ideal.sqrt (r2s I i j s)

def damp (i j : Fin 512) (s : Fin 27) : EReal :=
  Ideal.div one (one + Ideal.exp (lit 0xC1800000#32 * (Ideal.div (I.RC i + I.RC j) (rr I i j s) - one)))

def cnm (i j : Fin 512) (s : Fin 27) : BitVec 1 :=
  IntOp.andi (pm I i j s) (Ideal.cmp .ole (rr I i j s) (lit 0x42200000#32))

def contrib (i j : Fin 512) (s : Fin 27) : EReal := Scalar.select (cnm I i j s) (damp I i j s) zero

def cnTile (i : Fin 512) (jt : Fin 4) : EReal := ∑ l : Fin 128, ∑ s : Fin 27, contrib I i (jOf jt l) s

def cnK (i : Fin 512) : EReal := (((zero + cnTile I i 0) + cnTile I i 1) + cnTile I i 2) + cnTile I i 3

def cnR (i : Fin 512) : EReal := zero + ∑ j : Fin 512, ∑ s : Fin 27, contrib I i j s

section Energy

variable (c : Fin 512 → EReal)

def valid (i j : Fin 512) (a b : Fin 5) : BitVec 1 := Ideal.cmp .ogt (I.T i j 0 a b) zero

def dcn (i j : Fin 512) (a b : Fin 5) : EReal :=
  (c i - I.T i j 1 a b) * (c i - I.T i j 1 a b) + (c j - I.T i j 2 a b) * (c j - I.T i j 2 a b)

def dmin (i j : Fin 512) : EReal :=
  Finset.univ.inf fun ab : Fin 5 × Fin 5 => Scalar.select (valid I i j ab.1 ab.2) (dcn I c i j ab.1 ab.2) (lit 0x501502F9#32)

def wgt (i j : Fin 512) (a b : Fin 5) : EReal :=
  Scalar.select (valid I i j a b) (Ideal.exp (lit 0xC0800000#32 * (dcn I c i j a b - dmin I c i j))) zero

def sumw (i j : Fin 512) : EReal := ∑ ab : Fin 5 × Fin 5, wgt I c i j ab.1 ab.2
def sumc6w (i j : Fin 512) : EReal := ∑ ab : Fin 5 × Fin 5, I.T i j 0 ab.1 ab.2 * wgt I c i j ab.1 ab.2

def c6 (i j : Fin 512) : EReal := Ideal.div (sumc6w I c i j) (max (sumw I c i j) (lit 0x1E3CE508#32))
def c8 (i j : Fin 512) : EReal := ((lit 0x40400000#32 * c6 I c i j) * I.R4 i) * I.R4 j

def r6 (i j : Fin 512) (s : Fin 27) : EReal := Scalar.select (pm I i j s) ((r2 I i j s * r2 I i j s) * r2 I i j s) one
def r8 (i j : Fin 512) (s : Fin 27) : EReal := r6 I i j s * r2s I i j s

def t6K (i j : Fin 512) (s : Fin 27) : EReal :=
  let q := Ideal.div ((lit 0x3F9BC6A8#32 * I.R0 i j) * (lit 0x3F9BC6A8#32 * I.R0 i j)) (r2s I i j s)
  (((q * q) * (q * q)) * (q * q)) * q

def t8K (i j : Fin 512) (s : Fin 27) : EReal :=
  let q := Ideal.div ((one * I.R0 i j) * (one * I.R0 i j)) (r2s I i j s)
  ((q * q) * (q * q)) * ((q * q) * (q * q))

def t6R (i j : Fin 512) (s : Fin 27) : EReal :=
  Ideal.pow (Ideal.div (rr I i j s) (lit 0x3F9BC6A8#32 * I.R0 i j)) (lit 0xC1600000#32)

def t8R (i j : Fin 512) (s : Fin 27) : EReal :=
  Ideal.pow (Ideal.div (rr I i j s) (one * I.R0 i j)) (lit 0xC1800000#32)

def cutK (i j : Fin 512) (s : Fin 27) : BitVec 1 :=
  IntOp.andi (pm I i j s) (Ideal.cmp .ole (r2 I i j s) (lit 0x460D0400#32))

def cutR (i j : Fin 512) (s : Fin 27) : BitVec 1 :=
  IntOp.andi (pm I i j s) (Ideal.cmp .ole (rr I i j s) (lit 0x42BE0000#32))

def e6 (t6 : EReal) (i j : Fin 512) (s : Fin 27) : EReal :=
  Ideal.div (Ideal.div (one * c6 I c i j) (r6 I i j s)) (one + six * t6)
def e8 (t8 : EReal) (i j : Fin 512) (s : Fin 27) : EReal :=
  Ideal.div (Ideal.div (lit 0x3F38D4FE#32 * c8 I c i j) (r8 I i j s)) (one + six * t8)

def valK (i j : Fin 512) (s : Fin 27) : EReal :=
  Scalar.select (cutK I i j s) (e6 I c (t6K I i j s) i j s + e8 I c (t8K I i j s) i j s) zero
def valR (i j : Fin 512) (s : Fin 27) : EReal :=
  Scalar.select (cutR I i j s) (e6 I c (t6R I i j s) i j s + e8 I c (t8R I i j s) i j s) zero

def eTile (i : Fin 512) (jt : Fin 4) : EReal :=
  lit 0xBF000000#32 * ∑ l : Fin 128, ∑ s : Fin 27, valK I c i (jOf jt l) s

def eAtom (i : Fin 512) : EReal := (((zero + eTile I c i 0) + eTile I c i 1) + eTile I c i 2) + eTile I c i 3

end Energy

def resK : EReal := lit 0x41D9B0EB#32 * (zero + ∑ i : Fin 512, eAtom I (cnK I) i)

def resR : EReal :=
  lit 0x41D9B0EB#32 * (lit 0xBF000000#32 * (zero + ∑ i : Fin 512, ∑ j : Fin 512, ∑ s : Fin 27, valR I (cnR I) i j s))

def Finite : Prop :=
  (∀ i k, ∃ x : ℝ, I.P i k = x) ∧ (∀ s k, ∃ x : ℝ, I.Sh s k = x) ∧ (∀ i, ∃ x : ℝ, I.RC i = x) ∧ (∀ i, ∃ x : ℝ, I.R4 i = x)
    ∧ (∀ i j ch a b, ∃ x : ℝ, I.T i j ch a b = x) ∧ (∀ i j, ∃ x : ℝ, I.R0 i j = x)

end Cert.Spec

end
-- ==== Proof.Lits.lean ====
import proofs.«426955_j43147241456154_3_alg».proof.Proof.Spec
import Mathlib.Data.EReal.Basic
import Mathlib.Tactic.NormNum

noncomputable section

namespace Cert.Spec

open Idealize.ShloMosaic

theorem zero_eq : zero = 0 := by
  simp [zero, lit, Ideal.ofBits, Ideal.ieee]
theorem zero_eq_coe : zero = ((0 : ℝ) : EReal) := zero_eq
theorem one_eq : one = ((1 : ℝ) : EReal) := by
  simp [one, lit, Ideal.ofBits, Ideal.ieee, -EReal.coe_mul]; norm_num
theorem six_eq : six = ((6 : ℝ) : EReal) := by
  simp [six, lit, Ideal.ofBits, Ideal.ieee, -EReal.coe_mul]; norm_num
theorem lit_9025 : lit 0x460D0400#32 = ((9025 : ℝ) : EReal) := by
  simp [lit, Ideal.ofBits, Ideal.ieee, -EReal.coe_mul]; norm_num
theorem lit_95 : lit 0x42BE0000#32 = ((95 : ℝ) : EReal) := by
  simp [lit, Ideal.ofBits, Ideal.ieee, -EReal.coe_mul]; norm_num
theorem lit_m14 : lit 0xC1600000#32 = ((-((14 : ℕ) : ℝ) : ℝ) : EReal) := by
  simp [lit, Ideal.ofBits, Ideal.ieee, -EReal.coe_mul]; norm_num
theorem lit_m16 : lit 0xC1800000#32 = ((-((16 : ℕ) : ℝ) : ℝ) : EReal) := by
  simp [lit, Ideal.ofBits, Ideal.ieee, -EReal.coe_mul]; norm_num
theorem lit_eps : lit 0x322BCC77#32 = ((11258999 / 2 ^ 50 : ℝ) : EReal) := by
  simp [lit, Ideal.ofBits, Ideal.ieee, -EReal.coe_mul]; norm_num
theorem lit_tiny : lit 0x1E3CE508#32 = ((12379400 / 2 ^ 90 : ℝ) : EReal) := by
  simp [lit, Ideal.ofBits, Ideal.ieee, -EReal.coe_mul]; norm_num
theorem lit_bohr : lit 0x3F077829#32 = ((8878121 / 2 ^ 24 : ℝ) : EReal) := by
  simp [lit, Ideal.ofBits, Ideal.ieee, -EReal.coe_mul]; norm_num
theorem lit_top : lit 0x7F800000#32 = ⊤ := by
  simp [lit, Ideal.ofBits, Ideal.ieee]

-- A word whose exponent field is not 255 denotes a real.
theorem lit_real (w : BitVec 32) (h : (w.extractLsb' 23 8).toNat ≠ 2 ^ 8 - 1) : ∃ r : ℝ, lit w = (r : EReal) := by
  simp only [lit, Ideal.ofBits, Ideal.ieee]
  rw [if_neg h]
  split <;> exact ⟨_, rfl⟩

end Cert.Spec

end
-- ==== Proof.Pay1a.lean ====
import proofs.«426955_j43147241456154_3_alg».proof.Proof.Lits
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Mathlib.Algebra.BigOperators.Fin
import Mathlib.Order.CompleteLattice.Finset
import Mathlib.Data.Fintype.BigOperators

noncomputable section

namespace Cert.KernelIdeal.Pay1

open Idealize.ShloMosaic Idealize.ShloMosaic.ValueIdx

variable {α : Type} {a b c : ℕ}

-- A broadcast reads coordinate 0 on an axis of extent 1, and the target's coordinate otherwise.
theorem fin_bc {n : ℕ} (p : Fin n) : p.val = if n = 1 then 0 else p.val := by
  have := p.isLt; split <;> omega

theorem bc_a11_a1c (v : (⟨3, ![a, 1, 1]⟩ : Shape).Idx → α) (h : (⟨3, ![a, 1, 1]⟩ : Shape).Broadcasts ⟨3, ![a, 1, c]⟩)
    (p : Fin a) (u : Fin 1) (l : Fin c) : broadcastTo ⟨3, ![a, 1, c]⟩ v h (ix3 p u l) = v (ix3 p (0 : Fin 1) (0 : Fin 1)) :=
  broadcastTo_apply v h _ _ fun ax => by
    match ax with | ⟨0, _⟩ | ⟨1, _⟩ | ⟨2, _⟩ => first | rfl | exact fin_bc _

theorem bc_11c_a1c (v : (⟨3, ![1, 1, c]⟩ : Shape).Idx → α) (h : (⟨3, ![1, 1, c]⟩ : Shape).Broadcasts ⟨3, ![a, 1, c]⟩)
    (p : Fin a) (u : Fin 1) (l : Fin c) : broadcastTo ⟨3, ![a, 1, c]⟩ v h (ix3 p u l) = v (ix3 (0 : Fin 1) (0 : Fin 1) l) :=
  broadcastTo_apply v h _ _ fun ax => by
    match ax with | ⟨0, _⟩ | ⟨1, _⟩ | ⟨2, _⟩ => first | rfl | exact fin_bc _

theorem bc_a1c_abc (v : (⟨3, ![a, 1, c]⟩ : Shape).Idx → α) (h : (⟨3, ![a, 1, c]⟩ : Shape).Broadcasts ⟨3, ![a, b, c]⟩)
    (p : Fin a) (s : Fin b) (l : Fin c) : broadcastTo ⟨3, ![a, b, c]⟩ v h (ix3 p s l) = v (ix3 p (0 : Fin 1) l) :=
  broadcastTo_apply v h _ _ fun ax => by
    match ax with | ⟨0, _⟩ | ⟨1, _⟩ | ⟨2, _⟩ => first | rfl | exact fin_bc _

theorem bc_1b1_abc (v : (⟨3, ![1, b, 1]⟩ : Shape).Idx → α) (h : (⟨3, ![1, b, 1]⟩ : Shape).Broadcasts ⟨3, ![a, b, c]⟩)
    (p : Fin a) (s : Fin b) (l : Fin c) : broadcastTo ⟨3, ![a, b, c]⟩ v h (ix3 p s l) = v (ix3 (0 : Fin 1) s (0 : Fin 1)) :=
  broadcastTo_apply v h _ _ fun ax => by
    match ax with | ⟨0, _⟩ | ⟨1, _⟩ | ⟨2, _⟩ => first | rfl | exact fin_bc _

theorem bc_a11_abc (v : (⟨3, ![a, 1, 1]⟩ : Shape).Idx → α) (h : (⟨3, ![a, 1, 1]⟩ : Shape).Broadcasts ⟨3, ![a, b, c]⟩)
    (p : Fin a) (s : Fin b) (l : Fin c) : broadcastTo ⟨3, ![a, b, c]⟩ v h (ix3 p s l) = v (ix3 p (0 : Fin 1) (0 : Fin 1)) :=
  broadcastTo_apply v h _ _ fun ax => by
    match ax with | ⟨0, _⟩ | ⟨1, _⟩ | ⟨2, _⟩ => first | rfl | exact fin_bc _

theorem bc_11c_abc (v : (⟨3, ![1, 1, c]⟩ : Shape).Idx → α) (h : (⟨3, ![1, 1, c]⟩ : Shape).Broadcasts ⟨3, ![a, b, c]⟩)
    (p : Fin a) (s : Fin b) (l : Fin c) : broadcastTo ⟨3, ![a, b, c]⟩ v h (ix3 p s l) = v (ix3 (0 : Fin 1) (0 : Fin 1) l) :=
  broadcastTo_apply v h _ _ fun ax => by
    match ax with | ⟨0, _⟩ | ⟨1, _⟩ | ⟨2, _⟩ => first | rfl | exact fin_bc _

theorem sc_a1_a11 (x : (⟨2, ![a, 1]⟩ : Shape).Idx → α) (h : (⟨2, ![a, 1]⟩ : Shape).ShapeCasts ⟨3, ![a, 1, 1]⟩)
    (p : Fin a) (u w : Fin 1) : shapeCast ⟨3, ![a, 1, 1]⟩ x h (ix3 p u w) = x (ix2 p (0 : Fin 1)) :=
  shapeCast_apply x h _ _ (by
    rw [Shape.rowMajor_val_three, Shape.rowMajor_val_two]
    show p.val * 1 + 0 = (p.val * 1 + u.val) * 1 + w.val
    omega)

theorem sc_ac_a1c (x : (⟨2, ![a, c]⟩ : Shape).Idx → α) (h : (⟨2, ![a, c]⟩ : Shape).ShapeCasts ⟨3, ![a, 1, c]⟩)
    (p : Fin a) (u : Fin 1) (l : Fin c) : shapeCast ⟨3, ![a, 1, c]⟩ x h (ix3 p u l) = x (ix2 p l) :=
  shapeCast_apply x h _ _ (by
    rw [Shape.rowMajor_val_three, Shape.rowMajor_val_two]
    show p.val * c + l.val = (p.val * 1 + u.val) * c + l.val
    rw [show u.val = 0 by omega, Nat.mul_one, Nat.add_zero])

theorem sc_a_a1 (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    rw [Shape.rowMajor_val_two, Shape.rowMajor_val_one]
    show p.val = p.val * 1 + u.val
    omega)

section Reductions
variable (hφ : FKind.Formats .f32) (hacc : (0x00000000#32 : BitVec 32) = FKind.add.neutral .f32 hφ)

theorem red_add_mid (src : FVec Ideal ⟨3, ![a, b, c]⟩ .f32) (h : (⟨3, ![a, b, c]⟩ : Shape).Reduces [1] ⟨2, ![a, c]⟩)
    (p : Fin a) (l : Fin c) :
    multiReduction .add [1] ⟨2, ![a, c]⟩ src 0x00000000#32 h hφ hacc (ix2 p l) = ∑ s : Fin b, src (ix3 p s l) := by
  rw [Ideal.multiReduction_add_single]
  exact Finset.sum_congr rfl fun s _ => congrArg src (funext fun ax =>
    match ax with | ⟨0, _⟩ | ⟨1, _⟩ | ⟨2, _⟩ => rfl)

theorem red_add_last (src : FVec Ideal ⟨2, ![a, c]⟩ .f32) (h : (⟨2, ![a, c]⟩ : Shape).Reduces [1] ⟨1, ![a]⟩) (p : Fin a) :
    multiReduction .add [1] ⟨1, ![a]⟩ src 0x00000000#32 h hφ hacc (ix1 p) = ∑ l : Fin c, src (ix2 p l) := by
  rw [Ideal.multiReduction_add_single]
  exact Finset.sum_congr rfl fun l _ => congrArg src (funext fun ax =>
    match ax with | ⟨0, _⟩ | ⟨1, _⟩ => rfl)

-- The two sums of a tile, lanes outside and shifts inside.
theorem red2 (w : FVec Ideal ⟨3, ![a, b, c]⟩ .f32) (h : (⟨3, ![a, b, c]⟩ : Shape).Reduces [1] ⟨2, ![a, c]⟩)
    (h' : (⟨2, ![a, c]⟩ : Shape).Reduces [1] ⟨1, ![a]⟩) (hc : (⟨1, ![a]⟩ : Shape).ShapeCasts ⟨2, ![a, 1]⟩) (p : Fin a) (u : Fin 1) :
    shapeCast ⟨2, ![a, 1]⟩ (multiReduction .add [1] ⟨1, ![a]⟩
        (multiReduction .add [1] ⟨2, ![a, c]⟩ w 0x00000000#32 h hφ hacc) 0x00000000#32 h' hφ hacc) hc (ix2 p u)
      = ∑ l : Fin c, ∑ s : Fin b, w (ix3 p s l) :=
  (sc_a_a1 _ _ p u).trans ((red_add_last hφ hacc _ h' p).trans
    (Finset.sum_congr rfl fun l _ => red_add_mid hφ hacc w h p l))

end Reductions

-- A minimum taken from +∞ is the infimum.
theorem red_min_mid (src : FVec Ideal ⟨3, ![a, b, c]⟩ .f32) (h : (⟨3, ![a, b, c]⟩ : Shape).Reduces [1] ⟨2, ![a, c]⟩)
    (hφ : FKind.Formats .f32) (hacc : (0x7F800000#32 : BitVec 32) = FKind.minimumf.neutral .f32 hφ) (p : Fin a) (l : Fin c) :
    multiReduction .minimumf [1] ⟨2, ![a, c]⟩ src 0x7F800000#32 h hφ hacc (ix2 p l)
      = Finset.univ.inf fun s : Fin b => src (ix3 p s l) := by
  rw [multiReduction_minimumf_eq_fold, h.fold_filter_drop_single,
    show FloatOps.ofBits (F := Ideal) .f32 0x7F800000#32 = (⊤ : EReal) from Cert.Spec.lit_top,
    show (src ∘ h.lift (ix2 p l)) = fun s : Fin b => src (ix3 p s l) from funext fun s => congrArg src (funext fun ax =>
      match ax with | ⟨0, _⟩ | ⟨1, _⟩ | ⟨2, _⟩ => rfl)]
  rfl

section Pointwise
variable {s : Shape} {φ : FTy}

theorem sqrt_apply (x : FVec Ideal s φ) (i : s.Idx) : sqrt x i = Ideal.sqrt (x i) := rfl
theorem exp_apply (x : FVec Ideal s φ) (i : s.Idx) : exp x i = Ideal.exp (x i) := rfl
theorem andi_apply {w : ℕ} (x y : IVec s w) (i : s.Idx) : andi x y i = IntOp.andi (x i) (y i) := rfl
theorem cmpf_ideal_apply (q : CmpFPredicate) (x y : FVec Ideal s φ) (i : s.Idx) :
    cmpf q x y i = Ideal.cmp q (x i) (y i) := rfl
theorem ofBits_lit (w : BitVec 32) : (Scalar.ofBits .f32 w : Ideal .f32) = Cert.Spec.lit w := rfl

end Pointwise

-- The 25 reference pairs, numbered 5a + b.
def e25 : Fin 5 × Fin 5 ≃ Fin 25 where
  toFun ab := ⟨5 * ab.1.val + ab.2.val, by omega⟩
  invFun f := (⟨f.val / 5, by omega⟩, ⟨f.val % 5, by omega⟩)
  left_inv ab := by
    refine Prod.ext (Fin.ext ?_) (Fin.ext ?_) <;> simp only <;> omega
  right_inv f := Fin.ext (by simp only; omega)

theorem sum_25 {M : Type*} [AddCommMonoid M] (g : Fin 25 → M) :
    ∑ f : Fin 25, g f = ∑ ab : Fin 5 × Fin 5, g (e25 ab) := (Equiv.sum_comp e25 g).symm

theorem inf_25 (g : Fin 25 → EReal) :
    Finset.univ.inf g = Finset.univ.inf fun ab : Fin 5 × Fin 5 => g (e25 ab) :=
  calc Finset.univ.inf g = (Finset.univ.map e25.toEmbedding).inf g := by rw [Finset.map_univ_equiv]
    _ = _ := Finset.inf_map _ _ _

end Cert.KernelIdeal.Pay1

end
-- ==== Proof.Pay0.lean ====
import proofs.«426955_j43147241456154_3_alg».proof.Proof.Spec
import proofs.«426955_j43147241456154_3_alg».proof.Proof.Gen.KernelIdeal.Skeleton
import proofs.«426955_j43147241456154_3_alg».proof.Proof.Pay1a

noncomputable section

namespace Cert.KernelIdeal.Pay0

open Cert.KernelIdeal Cert.KernelIdeal.Gen Cert.KernelIdeal.Pay1 Cert.Spec Idealize.ShloMosaic Idealize.ShloMosaic.ValueIdx

theorem pay0_zero (p : Fin 32) : k0_pay1 (F := Ideal) (ix2 p 0) = Spec.zero := by
  delta k0_pay1
  simp only [shapeCast_self, broadcast_apply]
  rfl

-- One column tile adds to each row atom's accumulator the sum over lanes and shifts of the counting function of the pair.
theorem pay0_step (I : Spec.Inp) (it : Fin 16) (jt : Fin 4)
    (x0 : Vec Ideal S32x3 .f32) (x1 : Vec Ideal S3x128 .f32) (x2 : Vec Ideal S27x3 .f32) (x3 : Vec Ideal S32x1 .f32)
    (x4 : Vec Ideal S1x128 .f32) (a : Vec Ideal S32x1 .f32)
    (h0 : ∀ (p : Fin 32) (k : Fin 3), x0 (ix2 p k) = I.P (iOf it p) k)
    (h1 : ∀ (k : Fin 3) (l : Fin 128), x1 (ix2 k l) = I.P (jOf jt l) k)
    (h2 : ∀ (s : Fin 27) (k : Fin 3), x2 (ix2 s k) = I.Sh s k)
    (h3 : ∀ p : Fin 32, x3 (ix2 p 0) = I.RC (iOf it p))
    (h4 : ∀ l : Fin 128, x4 (ix2 0 l) = I.RC (jOf jt l)) (p : Fin 32) :
    k0_pay12 (k0_pay5 x3) (k0_pay6 x4) (k0_pay7 x2) (k0_pay8 x0 x1 x2) (k0_pay9 x0 x1 x2) (k0_pay10 x1) (k0_pay11 x0) a (ix2 p 0)
      = a (ix2 p 0) + Spec.cnTile I (iOf it p) jt := by
  delta k0_pay12 k0_pay5 k0_pay6 k0_pay7 k0_pay8 k0_pay9 k0_pay10 k0_pay11 k0_pay2 k0_pay3 k0_pay4
  simp only [shapeCast_self]
  rw [addf_apply]
  refine congrArg (fun t => a (ix2 p 0) + t) ((red2 _ _ _ _ _ _ p 0).trans ?_)
  show _ = ∑ l : Fin 128, ∑ s : Fin 27, Spec.contrib I (iOf it p) (jOf jt l) s
  refine Finset.sum_congr rfl fun l _ => Finset.sum_congr rfl fun s _ => ?_
  simp only [select_apply, andi_apply, cmpf_apply, divf_apply, sqrt_apply, exp_apply, addf_apply, subf_apply, mulf_apply,
    broadcast_apply, bc_a1c_abc, bc_1b1_abc, bc_a11_a1c, bc_11c_a1c, sc_a1_a11, shapeCast_ab_1ab_apply, Ideal.ofBits_def,
    slice2_axis1_apply 0 _ _ _ (0 : Fin 1) (0 : Fin 3) rfl, slice2_axis1_apply 1 _ _ _ (0 : Fin 1) (1 : Fin 3) rfl,
    slice2_axis1_apply 2 _ _ _ (0 : Fin 1) (2 : Fin 3) rfl, slice2_axis0_apply 0 _ _ (0 : Fin 1) _ (0 : Fin 3) rfl,
    slice2_axis0_apply 1 _ _ (0 : Fin 1) _ (1 : Fin 3) rfl, slice2_axis0_apply 2 _ _ (0 : Fin 1) _ (2 : Fin 3) rfl,
    h0, h1, h2, h3, h4]
  rfl

end Cert.KernelIdeal.Pay0

end
-- ==== Proof.KI.R0Value.lean ====
import proofs.«426955_j43147241456154_3_alg».proof.Proof.KI.R0Pieces
import proofs.«426955_j43147241456154_3_alg».proof.Proof.Pay0
import proofs.«426955_j43147241456154_3_alg».proof.Proof.Spec
import Idealize.ShloMosaic.Lib.Pipeline.Value
import Idealize.ShloMosaic.Lib.ValueIdx

noncomputable section

namespace Cert.KernelIdeal.R0V

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def itOf (t : Fin cfg0.N) : Fin 16 := ⟨t.val / 4, by have h : t.val < 64 := t.isLt; omega⟩

def jtOf (t : Fin cfg0.N) : Fin 4 := ⟨t.val % 4, Nat.mod_lt _ (by decide)⟩

theorem idx_facts : ∀ t : Fin cfg0.N,
    (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = 0 ∧ win0_2.index t (1 : Fin 2) = 0)
    ∧ (win0_3.index t (0 : Fin 2) = t.val / 4 ∧ win0_3.index t (1 : Fin 2) = 0)
    ∧ (win0_4.index t (0 : Fin 2) = 0 ∧ win0_4.index t (1 : Fin 2) = t.val % 4)
    ∧ (win0_5.index t (0 : Fin 2) = t.val / 4 ∧ win0_5.index t (1 : Fin 2) = 0) :=
  (by decide +kernel : ∀ t : Fin grid0.N, _)

theorem blk0_apply (c : Dev nD) (t : Fin cfg0.N) (p : Fin 32) (k : Fin 3) :
    (((cfg0.win 0).blk t).view.read (Elt Ideal) (V c (Pipeline.arrRef spec0 0)) : S32x3.Idx → EReal) (ix2 p k)
      = (V c main_v1 : S512x3.Idx → EReal) (ix2 (iOf (itOf t) p) k) := by
  obtain ⟨⟨e0, e1⟩, -⟩ := idx_facts t
  refine congrArg (V c main_v1 : S512x3.Idx → EReal) (funext fun a => Fin.ext ?_)
  match a with
  | ⟨0, _⟩ => show win0_0.index t (0 : Fin 2) * 32 + 1 * p.val = 32 * (t.val / 4) + p.val; omega
  | ⟨1, _⟩ => show win0_0.index t (1 : Fin 2) * 3 + 1 * k.val = k.val; omega

theorem blk1_apply (c : Dev nD) (t : Fin cfg0.N) (k : Fin 3) (l : Fin 128) :
    (((cfg0.win 1).blk t).view.read (Elt Ideal) (V c (Pipeline.arrRef spec0 1)) : S3x128.Idx → EReal) (ix2 k l)
      = (V c main_v2 : S3x512.Idx → EReal) (ix2 k (jOf (jtOf t) l)) := by
  obtain ⟨-, ⟨e0, e1⟩, -⟩ := idx_facts t
  refine congrArg (V c main_v2 : S3x512.Idx → EReal) (funext fun a => Fin.ext ?_)
  match a with
  | ⟨0, _⟩ => show win0_1.index t (0 : Fin 2) * 3 + 1 * k.val = k.val; omega
  | ⟨1, _⟩ => show win0_1.index t (1 : Fin 2) * 128 + 1 * l.val = 128 * (t.val % 4) + l.val; omega

theorem blk2_apply (c : Dev nD) (t : Fin cfg0.N) (s : Fin 27) (k : Fin 3) :
    (((cfg0.win 2).blk t).view.read (Elt Ideal) (V c (Pipeline.arrRef spec0 2)) : S27x3.Idx → EReal) (ix2 s k)
      = (V c main_v6 : S27x3.Idx → EReal) (ix2 s k) := by
  obtain ⟨-, -, ⟨e0, e1⟩, -⟩ := idx_facts t
  refine congrArg (V c main_v6 : S27x3.Idx → EReal) (funext fun a => Fin.ext ?_)
  match a with
  | ⟨0, _⟩ => show win0_2.index t (0 : Fin 2) * 27 + 1 * s.val = s.val; omega
  | ⟨1, _⟩ => show win0_2.index t (1 : Fin 2) * 3 + 1 * k.val = k.val; omega

theorem blk3_apply (c : Dev nD) (t : Fin cfg0.N) (p : Fin 32) (u : Fin 1) :
    (((cfg0.win 3).blk t).view.read (Elt Ideal) (V c (Pipeline.arrRef spec0 3)) : S32x1.Idx → EReal) (ix2 p u)
      = (V c main_v21 : S512x1.Idx → EReal) (ix2 (iOf (itOf t) p) (0 : Fin 1)) := by
  obtain ⟨-, -, -, ⟨e0, e1⟩, -⟩ := idx_facts t
  refine congrArg (V c main_v21 : S512x1.Idx → EReal) (funext fun a => Fin.ext ?_)
  match a with
  | ⟨0, _⟩ => show win0_3.index t (0 : Fin 2) * 32 + 1 * p.val = 32 * (t.val / 4) + p.val; omega
  | ⟨1, _⟩ => show win0_3.index t (1 : Fin 2) * 1 + 1 * u.val = 0; omega

theorem blk4_apply (c : Dev nD) (t : Fin cfg0.N) (u : Fin 1) (l : Fin 128) :
    (((cfg0.win 4).blk t).view.read (Elt Ideal) (V c (Pipeline.arrRef spec0 4)) : S1x128.Idx → EReal) (ix2 u l)
      = (V c main_v22 : S1x512.Idx → EReal) (ix2 (0 : Fin 1) (jOf (jtOf t) l)) := by
  obtain ⟨-, -, -, -, ⟨e0, e1⟩, -⟩ := idx_facts t
  refine congrArg (V c main_v22 : S1x512.Idx → EReal) (funext fun a => Fin.ext ?_)
  match a with
  | ⟨0, _⟩ => show win0_4.index t (0 : Fin 2) * 1 + 1 * u.val = 0; omega
  | ⟨1, _⟩ => show win0_4.index t (1 : Fin 2) * 128 + 1 * l.val = 128 * (t.val % 4) + l.val; omega

section Step
variable (I : Spec.Inp) (c : Dev nD)
  (hP : ∀ (i : Fin 512) (k : Fin 3), (V c main_v1 : S512x3.Idx → EReal) (ix2 i k) = I.P i k)
  (hPT : ∀ (k : Fin 3) (j : Fin 512), (V c main_v2 : S3x512.Idx → EReal) (ix2 k j) = I.P j k)
  (hSh : ∀ (s : Fin 27) (k : Fin 3), (V c main_v6 : S27x3.Idx → EReal) (ix2 s k) = I.Sh s k)
  (hRCc : ∀ i : Fin 512, (V c main_v21 : S512x1.Idx → EReal) (ix2 i 0) = I.RC i)
  (hRCr : ∀ j : Fin 512, (V c main_v22 : S1x512.Idx → EReal) (ix2 0 j) = I.RC j)

include hP hPT hSh hRCc hRCr in
theorem step_apply (t : Fin cfg0.N) (x0 : Vec Ideal S32x3 .f32) (x1 : Vec Ideal S3x128 .f32) (x2 : Vec Ideal S27x3 .f32)
    (x3 : Vec Ideal S32x1 .f32) (x4 : Vec Ideal S1x128 .f32)
    (e0 : x0 = ((cfg0.win 0).blk t).view.read (Elt Ideal) (V c (Pipeline.arrRef spec0 0)))
    (e1 : x1 = ((cfg0.win 1).blk t).view.read (Elt Ideal) (V c (Pipeline.arrRef spec0 1)))
    (e2 : x2 = ((cfg0.win 2).blk t).view.read (Elt Ideal) (V c (Pipeline.arrRef spec0 2)))
    (e3 : x3 = ((cfg0.win 3).blk t).view.read (Elt Ideal) (V c (Pipeline.arrRef spec0 3)))
    (e4 : x4 = ((cfg0.win 4).blk t).view.read (Elt Ideal) (V c (Pipeline.arrRef spec0 4)))
    (acc : Vec Ideal S32x1 .f32) (p : Fin 32) :
    k0_pay12 (k0_pay5 x3) (k0_pay6 x4) (k0_pay7 x2) (k0_pay8 x0 x1 x2) (k0_pay9 x0 x1 x2) (k0_pay10 x1) (k0_pay11 x0) acc (ix2 p 0)
      = acc (ix2 p 0) + cnTile I (iOf (itOf t) p) (jtOf t) := by
  subst e0 e1 e2 e3 e4
  exact Pay0.pay0_step I (itOf t) (jtOf t) _ _ _ _ _ acc
    (fun p k => (blk0_apply V c t p k).trans (hP _ k))
    (fun k l => (blk1_apply V c t k l).trans (hPT k _))
    (fun s k => (blk2_apply V c t s k).trans (hSh s k))
    (fun p => (blk3_apply V c t p 0).trans (hRCc _))
    (fun l => (blk4_apply V c t 0 l).trans (hRCr _)) p

end Step

theorem fold4 {N : ℕ} (f : (n : ℕ) → n < N → S32x1.Idx → EReal) (T : ℕ → Fin 32 → EReal) (z : EReal)
    (hreset : ∀ (n : ℕ) (h : n < N), n % 4 = 0 → ∀ p : Fin 32, f n h (ix2 p 0) = z + T n p)
    (hstep : ∀ (n m : ℕ) (hn : n < N) (hm : m < N), m = n + 1 → ¬m % 4 = 0 →
      ∀ p : Fin 32, f m hm (ix2 p 0) = f n hn (ix2 p 0) + T m p)
    (q : ℕ) (h : 4 * q + 3 < N) (p : Fin 32) :
    f (4 * q + 3) h (ix2 p 0) = (((z + T (4 * q) p) + T (4 * q + 1) p) + T (4 * q + 2) p) + T (4 * q + 3) p := by
  have e0 := hreset (4 * q) (by omega) (by omega) p
  have e1 := hstep (4 * q) (4 * q + 1) (by omega) (by omega) rfl (by omega) p
  have e2 := hstep (4 * q + 1) (4 * q + 2) (by omega) (by omega) rfl (by omega) p
  have e3 := hstep (4 * q + 2) (4 * q + 3) (by omega) h rfl (by omega) p
  rw [e3, e2, e1, e0]

theorem mem_blk5 (t : Fin cfg0.N) (y : S512x1.Idx) :
    y ∈ ((cfg0.win 5).blk t).view.set
      ↔ ∀ a : Fin 2, win0_5.index t a * S32x1.size a ≤ (y a).val ∧ (y a).val < win0_5.index t a * S32x1.size a + S32x1.size a := by
  show y ∈ ((View.whole main_v64).slice (win0_5.rect t)).set ↔ _
  rw [View.set_slice_whole, Rect.mem_set_unit]
  exact Iff.rfl

theorem cover5 (y : S512x1.Idx) :
    ∃ t : Fin cfg0.N, (cfg0.win 5).flush t = true ∧ y ∈ ((cfg0.win 5).blk t).view.set := by
  have hy0 : (y 0).val < 512 := idx2_lt0 y
  have hy1 : (y 1).val < 1 := idx2_lt1 y
  have hN : cfg0.N = 64 := N_0
  have ht : 4 * ((y 0).val / 32) + 3 < cfg0.N := by rw [hN]; omega
  refine ⟨⟨4 * ((y 0).val / 32) + 3, ht⟩, (flush0_5 _).mpr (by show (4 * ((y 0).val / 32) + 3) % 4 = 3; omega), ?_⟩
  obtain ⟨-, -, -, -, -, e0, e1⟩ := idx_facts ⟨4 * ((y 0).val / 32) + 3, ht⟩
  rw [mem_blk5]
  intro a
  match a with
  | ⟨0, _⟩ =>
    show win0_5.index ⟨4 * ((y 0).val / 32) + 3, ht⟩ (0 : Fin 2) * 32 ≤ (y 0).val
      ∧ (y 0).val < win0_5.index ⟨4 * ((y 0).val / 32) + 3, ht⟩ (0 : Fin 2) * 32 + 32
    rw [e0]
    show (4 * ((y 0).val / 32) + 3) / 4 * 32 ≤ (y 0).val ∧ (y 0).val < (4 * ((y 0).val / 32) + 3) / 4 * 32 + 32
    omega
  | ⟨1, _⟩ =>
    show win0_5.index ⟨4 * ((y 0).val / 32) + 3, ht⟩ (1 : Fin 2) * 1 ≤ (y 1).val
      ∧ (y 1).val < win0_5.index ⟨4 * ((y 0).val / 32) + 3, ht⟩ (1 : Fin 2) * 1 + 1
    rw [e1]
    omega

def addend (I : Spec.Inp) (n : ℕ) (p : Fin 32) : EReal :=
  cnTile I (iOf ⟨n / 4 % 16, Nat.mod_lt _ (by decide)⟩ p) ⟨n % 4, Nat.mod_lt _ (by decide)⟩

theorem addend_point (I : Spec.Inp) (t : Fin cfg0.N) (p : Fin 32) :
    cnTile I (iOf (itOf t) p) (jtOf t) = addend I t.val p := by
  have ht : t.val < 64 := t.isLt
  have ha : itOf t = ⟨t.val / 4 % 16, Nat.mod_lt _ (by decide)⟩ := Fin.ext (by show t.val / 4 = t.val / 4 % 16; omega)
  show cnTile I (iOf (itOf t) p) ⟨t.val % 4, _⟩ = cnTile I (iOf ⟨t.val / 4 % 16, _⟩ p) ⟨t.val % 4, _⟩
  rw [ha]

theorem addend_run (I : Spec.Inp) (q : Fin 16) (s : Fin 4) (p : Fin 32) :
    addend I (4 * q.val + s.val) p = cnTile I (iOf q p) s := by
  have hq := q.isLt
  have hs := s.isLt
  have ha : (⟨(4 * q.val + s.val) / 4 % 16, Nat.mod_lt _ (by decide)⟩ : Fin 16) = q :=
    Fin.ext (by show (4 * q.val + s.val) / 4 % 16 = q.val; omega)
  have hb : (⟨(4 * q.val + s.val) % 4, Nat.mod_lt _ (by decide)⟩ : Fin 4) = s :=
    Fin.ext (by show (4 * q.val + s.val) % 4 = s.val; omega)
  show cnTile I (iOf ⟨(4 * q.val + s.val) / 4 % 16, _⟩ p) ⟨(4 * q.val + s.val) % 4, _⟩ = _
  rw [ha, hb]

section Run
variable (I : Spec.Inp) (c : Dev nD)
  (hP : ∀ (i : Fin 512) (k : Fin 3), (V c main_v1 : S512x3.Idx → EReal) (ix2 i k) = I.P i k)
  (hPT : ∀ (k : Fin 3) (j : Fin 512), (V c main_v2 : S3x512.Idx → EReal) (ix2 k j) = I.P j k)
  (hSh : ∀ (s : Fin 27) (k : Fin 3), (V c main_v6 : S27x3.Idx → EReal) (ix2 s k) = I.Sh s k)
  (hRCc : ∀ i : Fin 512, (V c main_v21 : S512x1.Idx → EReal) (ix2 i 0) = I.RC i)
  (hRCr : ∀ j : Fin 512, (V c main_v22 : S1x512.Idx → EReal) (ix2 0 j) = I.RC j)

theorem outs_congr (a b : ℕ) (ha : a < cfg0.N) (hb : b < cfg0.N) (e : a = b) :
    R0.outsAt0 (F := Ideal) V c a ha = R0.outsAt0 (F := Ideal) V c b hb := by
  subst e; rfl

include hP hPT hSh hRCc hRCr in
theorem scr_reset_apply (n : ℕ) (hn : n < cfg0.N) (h0 : n % 4 = 0) (p : Fin 32) :
    ((R0.outsAt0 (F := Ideal) V c n hn).2 : S32x1.Idx → EReal) (ix2 p 0) = Spec.zero + addend I n p := by
  refine (congrFun (R0.scr0_reset (F := Ideal) V c ⟨n, hn⟩ h0) (ix2 p 0)).trans ?_
  refine (step_apply V I c hP hPT hSh hRCc hRCr ⟨n, hn⟩ _ _ _ _ _ rfl rfl rfl rfl rfl _ p).trans ?_
  rw [Pay0.pay0_zero p, addend_point I ⟨n, hn⟩ p]

include hP hPT hSh hRCc hRCr in
theorem scr_step_apply (n : ℕ) (hn : n < cfg0.N) (hm : n + 1 < cfg0.N) (hne : ¬(n + 1) % 4 = 0) (p : Fin 32) :
    ((R0.outsAt0 (F := Ideal) V c (n + 1) hm).2 : S32x1.Idx → EReal) (ix2 p 0)
      = ((R0.outsAt0 (F := Ideal) V c n hn).2 : S32x1.Idx → EReal) (ix2 p 0) + addend I (n + 1) p := by
  refine (congrFun (R0.scr0_step (F := Ideal) V c ⟨n + 1, hm⟩ hne) (ix2 p 0)).trans ?_
  refine (step_apply V I c hP hPT hSh hRCc hRCr ⟨n + 1, hm⟩ _ _ _ _ _ rfl rfl rfl rfl rfl _ p).trans ?_
  rw [addend_point I ⟨n + 1, hm⟩ p]; rfl

include hP hPT hSh hRCc hRCr in
theorem scr_last (q : Fin 16) (h : 4 * q.val + 3 < cfg0.N) (p : Fin 32) :
    ((R0.outsAt0 (F := Ideal) V c (4 * q.val + 3) h).2 : S32x1.Idx → EReal) (ix2 p 0) = cnK I (iOf q p) := by
  refine (fold4 (fun n hn => ((R0.outsAt0 (F := Ideal) V c n hn).2 : S32x1.Idx → EReal)) (addend I) Spec.zero
    (fun n hn h0 p => scr_reset_apply V I c hP hPT hSh hRCc hRCr n hn h0 p)
    (fun n m hn hm e hne p => by subst e; exact scr_step_apply V I c hP hPT hSh hRCc hRCr n hn hm hne p)
    q.val h p).trans ?_
  have a0 : addend I (4 * q.val) p = cnTile I (iOf q p) 0 := addend_run I q 0 p
  have a1 : addend I (4 * q.val + 1) p = cnTile I (iOf q p) 1 := addend_run I q 1 p
  have a2 : addend I (4 * q.val + 2) p = cnTile I (iOf q p) 2 := addend_run I q 2 p
  have a3 : addend I (4 * q.val + 3) p = cnTile I (iOf q p) 3 := addend_run I q 3 p
  rw [a0, a1, a2, a3]
  rfl

include hP hPT hSh hRCc hRCr in
theorem scr_flush (t : Fin cfg0.N) (h3 : t.val % 4 = 3) :
    ((R0.outsAt0 (F := Ideal) V c t.val t.isLt).2 : S32x1.Idx → EReal)
      = fun y => cnK I (iOf (itOf t) ⟨(y 0).val, idx2_lt0 y⟩) := by
  funext y
  obtain ⟨p, u, rfl⟩ : ∃ (p : Fin 32) (u : Fin 1), y = ix2 p u := ⟨y 0, y 1, eq_ix2 y⟩
  obtain rfl : u = 0 := Subsingleton.elim _ _
  have ht : t.val < 64 := t.isLt
  have e : t.val = 4 * (itOf t).val + 3 := by show t.val = 4 * (t.val / 4) + 3; omega
  have hb : 4 * (itOf t).val + 3 < cfg0.N := by rw [← e]; exact t.isLt
  rw [outs_congr V c t.val (4 * (itOf t).val + 3) t.isLt hb e]
  exact scr_last V I c hP hPT hSh hRCc hRCr (itOf t) hb p

def cnArr (I : Spec.Inp) : S512x1.Idx → EReal := fun y => cnK I ⟨(y 0).val, idx2_lt0 y⟩

include hP hPT hSh hRCc hRCr in
theorem flushed_eq (t : Fin cfg0.N) (hf : (cfg0.win 5).flush t = true) :
    (R0.dat0 (F := Ideal) V c).flushed 5 t = ((cfg0.win 5).blk t).view.read (Elt Ideal) (cnArr I) := by
  have h3 : t.val % 4 = 3 := (flush0_5 t).mp hf
  obtain ⟨-, -, -, -, -, e0, e1⟩ := idx_facts t
  show (cfg0.win 5).cut (grid0.coords t) ((R0.dat0 (F := Ideal) V c).after 5 t) = _
  rw [R0.after0_5, R0.out0_last V c t h3, scr_flush V I c hP hPT hSh hRCc hRCr t h3]
  funext y
  show cnK I (iOf (itOf t) ⟨(y 0).val, _⟩) = cnK I ⟨((((cfg0.win 5).blk t).view.emb y) 0).val, _⟩
  congr 1
  apply Fin.ext
  show 32 * (t.val / 4) + (y 0).val = win0_5.index t (0 : Fin 2) * 32 + 1 * (y 0).val
  rw [e0]
  omega

include hP hPT hSh hRCc hRCr in
theorem cn_final (i : Fin 512) :
    ((R0.dat0 (F := Ideal) V c).arrAt 5 cfg0.N : S512x1.Idx → EReal) (ix2 i 0) = Cert.Spec.cnK I i :=
  congrFun ((R0.dat0 (F := Ideal) V c).arrAt_eq_of_cover 5 (cnArr I)
    (flushed_eq V I c hP hPT hSh hRCc hRCr) cover5) (ix2 i 0)

end Run

end Cert.KernelIdeal.R0V

end
-- ==== Proof.Pay1.lean ====
import proofs.«426955_j43147241456154_3_alg».proof.Proof.Spec
import proofs.«426955_j43147241456154_3_alg».proof.Proof.Gen.KernelIdeal.Skeleton
import proofs.«426955_j43147241456154_3_alg».proof.Proof.Pay1a

noncomputable section

namespace Cert.KernelIdeal.Pay1

open Cert.KernelIdeal Cert.KernelIdeal.Gen Cert.Spec Idealize.ShloMosaic Idealize.ShloMosaic.ValueIdx

section Terms
variable {F : FTy → Type} [FloatOps F] (x0 : Vec F S32x3 .f32) (x1 : Vec F S3x128 .f32) (x2 : Vec F S27x3 .f32)
  (x3 : Vec F S32x1 .f32) (x4 : Vec F S1x128 .f32) (x5 : Vec F S32x75x128 .f32)

abbrev V61 : FVec F S32x27x128 .f32 :=
  k1_pay20 (k1_pay5 x2) (k1_pay12 x0) (k1_pay13 x0) (k1_pay14 x0) (k1_pay15 x1) (k1_pay16 x1) (k1_pay17 x1) (k1_pay18 x2) (k1_pay19 x2)

abbrev V63 : IVec S32x27x128 1 :=
  k1_pay21 (k1_pay5 x2) (k1_pay12 x0) (k1_pay13 x0) (k1_pay14 x0) (k1_pay15 x1) (k1_pay16 x1) (k1_pay17 x1) (k1_pay18 x2) (k1_pay19 x2)

abbrev V66 : IVec S32x27x128 1 :=
  k1_pay22 (k1_pay5 x2) (k1_pay12 x0) (k1_pay13 x0) (k1_pay14 x0) (k1_pay15 x1) (k1_pay16 x1) (k1_pay17 x1) (k1_pay18 x2) (k1_pay19 x2)

abbrev V67 : FVec F S32x25x128 .f32 := k1_pay23 (k1_pay8 x5)

abbrev V71 : IVec S32x25x128 1 := k1_pay24 (k1_pay8 x5)

abbrev V89 : FVec F S32x25x128 .f32 := k1_pay25 (k1_pay6 x3) (k1_pay7 x4) (k1_pay8 x5)

-- The energy accumulator after one column tile, as a function of the tile's nine input blocks and the accumulator before it.
def step1 (x0 : Vec F S32x3 .f32) (x1 : Vec F S3x128 .f32) (x2 : Vec F S27x3 .f32) (x3 : Vec F S32x1 .f32)
    (x4 : Vec F S1x128 .f32) (x5 : Vec F S32x75x128 .f32) (x6 : Vec F S32x128 .f32) (x7 : Vec F S32x1 .f32)
    (x8 : Vec F S1x128 .f32) (a : Vec F S32x1 .f32) : FVec F S32x1 .f32 :=
  k1_pay1 (V66 x0 x1 x2)
    (k1_pay26 (V67 x5) (V71 x5) (V89 x3 x4 x5))
    (k1_pay27 (k1_pay10 x7) (k1_pay11 x8) (V67 x5) (V71 x5) (V89 x3 x4 x5))
    (k1_pay29 (V61 x0 x1 x2) (V63 x0 x1 x2))
    (k1_pay30 (V61 x0 x1 x2) (V63 x0 x1 x2))
    (k1_pay32 (k1_pay9 x6) (V61 x0 x1 x2) (V63 x0 x1 x2))
    (k1_pay33 (k1_pay9 x6) (V61 x0 x1 x2) (V63 x0 x1 x2))
    a

end Terms

theorem pay1_zero (p : Fin 32) : k1_pay2 (F := Ideal) (ix2 p 0) = Spec.zero := by
  unfold k1_pay2
  simp only [shapeCast_self]
  rfl

-- Channel ch's 25 values are rows 25·ch to 25·ch + 24 of the table.
def kc (ch : Fin 3) (f : Fin 25) : Fin 75 := ⟨25 * ch.val + f.val, by omega⟩

theorem slice_blk {α : Type} {a c o : ℕ} (ch : Fin 3) (ho : o = 25 * ch.val) (X : (⟨3, ![a, 75, c]⟩ : Shape).Idx → α)
    (h : (⟨3, ![a, 75, c]⟩ : Shape).Slices ![0, o, 0] ⟨3, ![a, 25, c]⟩) (p : Fin a) (f : Fin 25) (l : Fin c) :
    extractStridedSlice ⟨3, ![a, 25, c]⟩ ![0, o, 0] X h (ix3 p f l) = X (ix3 p (kc ch f) l) :=
  slice3_axis1_apply o X h p f l _ (by subst ho; rfl)

section Read

variable {I : Spec.Inp} {c : Fin 512 → EReal} {it : Fin 16} {jt : Fin 4}
  {x0 : Vec Ideal S32x3 .f32} {x1 : Vec Ideal S3x128 .f32} {x2 : Vec Ideal S27x3 .f32}
  {x3 : Vec Ideal S32x1 .f32} {x4 : Vec Ideal S1x128 .f32} {x5 : Vec Ideal S32x75x128 .f32}
  {x6 : Vec Ideal S32x128 .f32} {x7 : Vec Ideal S32x1 .f32} {x8 : Vec Ideal S1x128 .f32}
  (a : Vec Ideal S32x1 .f32)
  (h0 : ∀ (p : Fin 32) (k : Fin 3), x0 (ix2 p k) = I.P (iOf it p) k)
  (h1 : ∀ (k : Fin 3) (l : Fin 128), x1 (ix2 k l) = I.P (jOf jt l) k)
  (h2 : ∀ (s : Fin 27) (k : Fin 3), x2 (ix2 s k) = I.Sh s k)
  (h3 : ∀ p : Fin 32, x3 (ix2 p 0) = c (iOf it p))
  (h4 : ∀ l : Fin 128, x4 (ix2 0 l) = c (jOf jt l))
  (h5 : ∀ (p : Fin 32) (ch : Fin 3) (a b : Fin 5) (l : Fin 128),
    x5 (ix3 p ⟨25 * ch.val + 5 * a.val + b.val, by omega⟩ l) = I.T (iOf it p) (jOf jt l) ch a b)
  (h6 : ∀ (p : Fin 32) (l : Fin 128), x6 (ix2 p l) = I.R0 (iOf it p) (jOf jt l))
  (h7 : ∀ p : Fin 32, x7 (ix2 p 0) = I.R4 (iOf it p))
  (h8 : ∀ l : Fin 128, x8 (ix2 0 l) = I.R4 (jOf jt l))
  (p : Fin 32) (s : Fin 27) (l : Fin 128)

section Distance
include h0 h1 h2

theorem V61_apply : V61 x0 x1 x2 (ix3 p s l) = r2 I (iOf it p) (jOf jt l) s := by
  delta V61 k1_pay20 k1_pay5 k1_pay12 k1_pay13 k1_pay14 k1_pay15 k1_pay16 k1_pay17 k1_pay18 k1_pay19 k1_pay3 k1_pay4
  simp only [shapeCast_self, addf_apply, mulf_apply, subf_apply, bc_a1c_abc, bc_1b1_abc, bc_11c_a1c, bc_a11_a1c, sc_a1_a11,
    shapeCast_ab_1ab_apply, slice2_axis1_apply 0 _ _ _ (0 : Fin 1) (0 : Fin 3) rfl, slice2_axis1_apply 1 _ _ _ (0 : Fin 1) (1 : Fin 3) rfl,
    slice2_axis1_apply 2 _ _ _ (0 : Fin 1) (2 : Fin 3) rfl, slice2_axis0_apply 0 _ _ (0 : Fin 1) _ (0 : Fin 3) rfl,
    slice2_axis0_apply 1 _ _ (0 : Fin 1) _ (1 : Fin 3) rfl, slice2_axis0_apply 2 _ _ (0 : Fin 1) _ (2 : Fin 3) rfl, h0, h1, h2]
  rfl

-- With r² read, this is the specification's cutoff mask by unfolding both.
theorem V66_apply : V66 x0 x1 x2 (ix3 p s l) = cutK I (iOf it p) (jOf jt l) s := by
  unfold cutK pm; rw [← V61_apply h0 h1 h2 p s l]; rfl

theorem r6_apply : k1_pay29 (V61 x0 x1 x2) (V63 x0 x1 x2) (ix3 p s l) = r6 I (iOf it p) (jOf jt l) s := by
  unfold r6 pm; rw [← V61_apply h0 h1 h2 p s l]; rfl

theorem r8_apply : k1_pay30 (V61 x0 x1 x2) (V63 x0 x1 x2) (ix3 p s l) = r8 I (iOf it p) (jOf jt l) s := by
  unfold r8 r6 r2s pm; rw [← V61_apply h0 h1 h2 p s l]; rfl

include h6

theorem t6_apply : k1_pay32 (k1_pay9 x6) (V61 x0 x1 x2) (V63 x0 x1 x2) (ix3 p s l) = t6K I (iOf it p) (jOf jt l) s := by
  unfold t6K r2s pm; rw [← V61_apply h0 h1 h2 p s l, ← h6]
  unfold k1_pay32 k1_pay31 k1_pay28 k1_pay9
  simp only [shapeCast_self, mulf_apply, divf_apply, select_apply, broadcast_apply, ofBits_lit, bc_a1c_abc, sc_ac_a1c]
  rfl

theorem t8_apply : k1_pay33 (k1_pay9 x6) (V61 x0 x1 x2) (V63 x0 x1 x2) (ix3 p s l)
      * k1_pay33 (k1_pay9 x6) (V61 x0 x1 x2) (V63 x0 x1 x2) (ix3 p s l) = t8K I (iOf it p) (jOf jt l) s := by
  unfold t8K r2s pm; rw [← V61_apply h0 h1 h2 p s l, ← h6]
  unfold k1_pay33 k1_pay31 k1_pay28 k1_pay9
  simp only [shapeCast_self, mulf_apply, divf_apply, select_apply, broadcast_apply, ofBits_lit, bc_a1c_abc, sc_ac_a1c]
  rfl

end Distance

section Table
include h5

theorem x5_kc (ch : Fin 3) (ab : Fin 5 × Fin 5) :
    x5 (ix3 p (kc ch (e25 ab)) l) = I.T (iOf it p) (jOf jt l) ch ab.1 ab.2 := by
  rw [← h5 p ch ab.1 ab.2 l]
  exact congrArg (fun k => x5 (ix3 p k l)) (Fin.ext (by
    show 25 * ch.val + (5 * ab.1.val + ab.2.val) = 25 * ch.val + 5 * ab.1.val + ab.2.val; omega))

omit h5 in
theorem V67_apply (f : Fin 25) : V67 x5 (ix3 p f l) = x5 (ix3 p (kc 0 f) l) := by
  unfold V67 k1_pay23 k1_pay8; simp only [shapeCast_self]; exact slice_blk (o := 0) 0 rfl x5 _ p f l

include h3 h4

-- The weight before masking: the minimum over the 25 rows is the specification's least distance.
theorem V89_apply (ab : Fin 5 × Fin 5) : V89 x3 x4 x5 (ix3 p (e25 ab) l)
    = Ideal.exp (lit 0xC0800000#32 * (dcn I c (iOf it p) (jOf jt l) ab.1 ab.2 - dmin I c (iOf it p) (jOf jt l))) := by
  unfold V89 k1_pay25 k1_pay24 k1_pay23 k1_pay6 k1_pay7 k1_pay8
  simp only [shapeCast_self, exp_apply, mulf_apply, subf_apply, addf_apply, broadcast_apply, ofBits_lit,
    bc_a1c_abc, bc_a11_abc, bc_11c_abc, sc_ac_a1c, sc_a1_a11, shapeCast_ab_1ab_apply,
    slice_blk (o := 25) 1 rfl, slice_blk (o := 50) 2 rfl]
  erw [red_min_mid]
  simp only [mulf_apply, subf_apply, addf_apply, select_apply, cmpf_ideal_apply, broadcast_apply,
    bc_a11_abc, bc_11c_abc, sc_a1_a11, shapeCast_ab_1ab_apply, slice_blk (o := 0) 0 rfl,
    slice_blk (o := 25) 1 rfl, slice_blk (o := 50) 2 rfl]
  rw [inf_25]
  simp only [x5_kc h5, h3, h4]
  rfl

theorem wgt_apply (ab : Fin 5 × Fin 5) :
    Scalar.select (V71 x5 (ix3 p (e25 ab) l)) (V89 x3 x4 x5 (ix3 p (e25 ab) l)) zero
      = wgt I c (iOf it p) (jOf jt l) ab.1 ab.2 := by
  rw [show V71 x5 (ix3 p (e25 ab) l) = Ideal.cmp .ogt (V67 x5 (ix3 p (e25 ab) l)) zero from rfl, V67_apply,
    V89_apply h3 h4 h5, x5_kc h5]
  rfl

theorem c6_apply (u : Fin 1) : k1_pay26 (V67 x5) (V71 x5) (V89 x3 x4 x5) (ix3 p u l) = c6 I c (iOf it p) (jOf jt l) := by
  unfold k1_pay26
  simp only [divf_apply, maximumf_apply, broadcast_apply, ofBits_lit, sc_ac_a1c]
  erw [red_add_mid, red_add_mid]
  simp only [mulf_apply, select_apply, broadcast_apply]
  rw [sum_25, sum_25]
  simp only [wgt_apply h3 h4 h5, V67_apply, x5_kc h5]
  rfl

include h7 h8 in
theorem c8_apply (u : Fin 1) :
    k1_pay27 (k1_pay10 x7) (k1_pay11 x8) (V67 x5) (V71 x5) (V89 x3 x4 x5) (ix3 p u l) = c8 I c (iOf it p) (jOf jt l) := by
  unfold k1_pay27 k1_pay10 k1_pay11
  simp only [shapeCast_self, mulf_apply, broadcast_apply, ofBits_lit, bc_a11_a1c, bc_11c_a1c, sc_a1_a11,
    shapeCast_ab_1ab_apply, c6_apply h3 h4 h5, h7, h8]
  rfl

end Table

variable (I c it jt x0 x1 x2 x3 x4 x5 x6 x7 x8)

-- Row p of the accumulator after the tile: its value before plus the tile's share of that atom's energy.
include h0 h1 h2 h3 h4 h5 h6 h7 h8 in
theorem pay1_step : step1 x0 x1 x2 x3 x4 x5 x6 x7 x8 a (ix2 p 0) = a (ix2 p 0) + eTile I c (iOf it p) jt := by
  unfold step1 k1_pay1
  simp only [shapeCast_self, addf_apply, mulf_apply, broadcast_apply, ofBits_lit]
  erw [red2]
  unfold eTile
  refine congrArg (fun t => a (ix2 p 0) + lit 0xBF000000#32 * t)
    (Finset.sum_congr rfl fun l _ => Finset.sum_congr rfl fun s _ => ?_)
  simp only [addf_apply, mulf_apply, divf_apply, select_apply, broadcast_apply, bc_a1c_abc]
  rw [V66_apply h0 h1 h2, c6_apply h3 h4 h5, c8_apply h3 h4 h5 h7 h8, r6_apply h0 h1 h2, r8_apply h0 h1 h2,
    t6_apply h0 h1 h2 h6, t8_apply h0 h1 h2 h6]
  rfl

end Read

end Cert.KernelIdeal.Pay1

end
-- ==== Proof.KI.R1Pieces.lean ====
import proofs.«426955_j43147241456154_3_alg».proof.Proof.KI.R1Body
import proofs.«426955_j43147241456154_3_alg».proof.Proof.Pay1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem unread_scr (h : scM1_0.IsWhole) (a : Vec F S32x1 .f32) : h.unread a = a := h.unread_read a

/-- Each case's pieces cover the whole shape and carry the kernel's payload over the point's blocks: read off the run. -/
theorem canonB_eq (c : Dev nD) (t : Fin cfg1.N) (h0 : ¬t.val % 4 = 0) (h1 : ¬t.val % 4 = 3) (a : Vec F S32x1 .f32) :
    View.canon (runB V c t h0 h1 a).2.1 = Pay1.step1 (iblk1 V c 0 t) (iblk1 V c 1 t) (iblk1 V c 2 t) (iblk1 V c 3 t) (iblk1 V c 4 t) (iblk1 V c 5 t) (iblk1 V c 6 t) (iblk1 V c 7 t) (iblk1 V c 8 t) a := by
  unfold runB kernelRun1_B
  dsimp only
  sl_unfold_words
  rw [View.canon_unit_zero hz2]
  simp only [View.readAt_eq_ld, Memref.IsWhole.read_unread, unread_scr, View.read_whole,
    View.ld_unit_zero (S := S32x3) hz2, View.ld_unit_zero (S := S3x128) hz2, View.ld_unit_zero (S := S27x3) hz2, View.ld_unit_zero (S := S32x1) hz2,
    View.ld_unit_zero (S := S1x128) hz2, View.ld_unit_zero (S := S32x75x128) hz3, View.ld_unit_zero (S := S32x128) hz2]
  rfl

theorem canonC_eq (c : Dev nD) (t : Fin cfg1.N) (h1 : t.val % 4 = 3) (a : Vec F S32x1 .f32) :
    View.canon (runC V c t h1 a).2.1 = Pay1.step1 (iblk1 V c 0 t) (iblk1 V c 1 t) (iblk1 V c 2 t) (iblk1 V c 3 t) (iblk1 V c 4 t) (iblk1 V c 5 t) (iblk1 V c 6 t) (iblk1 V c 7 t) (iblk1 V c 8 t) a := by
  unfold runC kernelRun1_C
  dsimp only
  sl_unfold_words
  rw [View.canon_unit_zero hz2]
  simp only [View.readAt_eq_ld, Memref.IsWhole.read_unread, unread_scr, View.read_whole,
    View.ld_unit_zero (S := S32x3) hz2, View.ld_unit_zero (S := S3x128) hz2, View.ld_unit_zero (S := S27x3) hz2, View.ld_unit_zero (S := S32x1) hz2,
    View.ld_unit_zero (S := S1x128) hz2, View.ld_unit_zero (S := S32x75x128) hz3, View.ld_unit_zero (S := S32x128) hz2]
  rfl

theorem canonC9_eq (c : Dev nD) (t : Fin cfg1.N) (h1 : t.val % 4 = 3) (a : Vec F S32x1 .f32) :
    View.canon (runC V c t h1 a).1 = Pay1.step1 (iblk1 V c 0 t) (iblk1 V c 1 t) (iblk1 V c 2 t) (iblk1 V c 3 t) (iblk1 V c 4 t) (iblk1 V c 5 t) (iblk1 V c 6 t) (iblk1 V c 7 t) (iblk1 V c 8 t) a := by
  unfold runC kernelRun1_C
  dsimp only
  sl_unfold_words
  rw [View.canon_unit_zero hz2, View.readCov_unit_zero (S := S32x1) _ hz2]
  simp only [View.readAt_eq_ld, Memref.IsWhole.read_unread, unread_scr, View.read_whole,
    View.ld_unit_zero (S := S32x3) hz2, View.ld_unit_zero (S := S3x128) hz2, View.ld_unit_zero (S := S27x3) hz2, View.ld_unit_zero (S := S32x1) hz2,
    View.ld_unit_zero (S := S1x128) hz2, View.ld_unit_zero (S := S32x75x128) hz3, View.ld_unit_zero (S := S32x128) hz2]
  rfl

theorem canonA_eq (c : Dev nD) (t : Fin cfg1.N) (h0 : t.val % 4 = 0) :
    View.canon (runA V c t h0).2.1 = Pay1.step1 (iblk1 V c 0 t) (iblk1 V c 1 t) (iblk1 V c 2 t) (iblk1 V c 3 t) (iblk1 V c 4 t) (iblk1 V c 5 t) (iblk1 V c 6 t) (iblk1 V c 7 t) (iblk1 V c 8 t) (k1_pay2 (F := F)) := by
  unfold runA kernelRun1_A
  dsimp only
  sl_unfold_words
  rw [View.canon_cons_unit_zero (S := S32x1) hz2, View.readCov_unit_zero (S := S32x1) _ hz2]
  simp only [View.readAt_eq_ld, Memref.IsWhole.read_unread, unread_scr, View.read_whole,
    View.ld_unit_zero (S := S32x3) hz2, View.ld_unit_zero (S := S3x128) hz2, View.ld_unit_zero (S := S27x3) hz2, View.ld_unit_zero (S := S32x1) hz2,
    View.ld_unit_zero (S := S1x128) hz2, View.ld_unit_zero (S := S32x75x128) hz3, View.ld_unit_zero (S := S32x128) hz2]
  rfl

/-- So the scratch is reset at the points ≡ 0 (mod 4), stepped from the point before at the others, and copied out at the points ≡ 3. -/
theorem scr1_reset (c : Dev nD) (t : Fin cfg1.N) (h : t.val % 4 = 0) :
    (outsAt1 V c t.val t.isLt).2 = Pay1.step1 (iblk1 V c 0 t) (iblk1 V c 1 t) (iblk1 V c 2 t) (iblk1 V c 3 t) (iblk1 V c 4 t) (iblk1 V c 5 t) (iblk1 V c 6 t) (iblk1 V c 7 t) (iblk1 V c 8 t) (k1_pay2 (F := F)) :=
  (congrArg Prod.snd (outs_A V c t h)).trans (canonA_eq V c t h)

theorem scr1_step (c : Dev nD) (t : Fin cfg1.N) (h : ¬t.val % 4 = 0) :
    (outsAt1 V c t.val t.isLt).2 = Pay1.step1 (iblk1 V c 0 t) (iblk1 V c 1 t) (iblk1 V c 2 t) (iblk1 V c 3 t) (iblk1 V c 4 t) (iblk1 V c 5 t) (iblk1 V c 6 t) (iblk1 V c 7 t) (iblk1 V c 8 t) (accB V c t.val (Nat.le_of_lt t.isLt)) := by
  by_cases h1 : t.val % 4 = 3
  · exact (congrArg Prod.snd (outs_C V c t h1)).trans (canonC_eq V c t h1 _)
  · exact (congrArg Prod.snd (outs_B V c t h h1)).trans (canonB_eq V c t h h1 _)

theorem out1_last (c : Dev nD) (t : Fin cfg1.N) (h : t.val % 4 = 3) :
    (outsAt1 V c t.val t.isLt).1 = (outsAt1 V c t.val t.isLt).2 := by
  rw [outs_C V c t h]; exact (canonC9_eq V c t h _).trans (canonC_eq V c t h _).symm

end Cert.KernelIdeal.R1

end
-- ==== Proof.KI.R1Value.lean ====
import proofs.«426955_j43147241456154_3_alg».proof.Proof.KI.R1Pieces
import proofs.«426955_j43147241456154_3_alg».proof.Proof.Pay1
import proofs.«426955_j43147241456154_3_alg».proof.Proof.Spec
import Idealize.ShloMosaic.Lib.Pipeline.Value
import Idealize.ShloMosaic.Lib.ValueIdx

set_option maxRecDepth 16384

noncomputable section

namespace Cert.KernelIdeal.R1V

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (I : Spec.Inp) (cn : Fin 512 → EReal) (V : (c : Dev nD) → (b : Ref sig .tc) → Buf (Elt Ideal) ((c : Thread nD τ).loc b))

def rowT (t : Fin cfg1.N) : Fin 16 := ⟨t.val / 4, by have h : t.val < 64 := t.isLt; omega⟩

def colT (t : Fin cfg1.N) : Fin 4 := ⟨t.val % 4, Nat.mod_lt _ (by decide)⟩

theorem tile_index : ∀ t : Fin cfg1.N,
    (win1_0.index t (0 : Fin 2) = t.val / 4 ∧ win1_0.index t (1 : Fin 2) = 0)
    ∧ (win1_1.index t (0 : Fin 2) = 0 ∧ win1_1.index t (1 : Fin 2) = t.val % 4)
    ∧ (win1_2.index t (0 : Fin 2) = 0 ∧ win1_2.index t (1 : Fin 2) = 0)
    ∧ (win1_3.index t (0 : Fin 2) = t.val / 4 ∧ win1_3.index t (1 : Fin 2) = 0)
    ∧ (win1_4.index t (0 : Fin 2) = 0 ∧ win1_4.index t (1 : Fin 2) = t.val % 4)
    ∧ (win1_5.index t (0 : Fin 3) = t.val / 4 ∧ win1_5.index t (1 : Fin 3) = 0 ∧ win1_5.index t (2 : Fin 3) = t.val % 4)
    ∧ (win1_6.index t (0 : Fin 2) = t.val / 4 ∧ win1_6.index t (1 : Fin 2) = t.val % 4)
    ∧ (win1_7.index t (0 : Fin 2) = t.val / 4 ∧ win1_7.index t (1 : Fin 2) = 0)
    ∧ (win1_8.index t (0 : Fin 2) = 0 ∧ win1_8.index t (1 : Fin 2) = t.val % 4)
    ∧ (win1_9.index t (0 : Fin 2) = t.val / 4 ∧ win1_9.index t (1 : Fin 2) = 0) :=
  (by decide +kernel : ∀ t : Fin grid1.N, _)

theorem rd0 (c : Dev nD) (t : Fin cfg1.N) (p : Fin 32) (k : Fin 3) :
    (R1.iblk1 V c 0 t : S32x3.Idx → EReal) (ix2 p k)
      = (V c main_v1 : S512x3.Idx → EReal) (ix2 (iOf (rowT t) p) k) := by
  obtain ⟨⟨e0, e1⟩, -⟩ := tile_index t
  refine congrArg (V c main_v1 : S512x3.Idx → EReal) (funext fun a => Fin.ext ?_)
  match a with
  | ⟨0, _⟩ => show win1_0.index t (0 : Fin 2) * 32 + 1 * p.val = 32 * (t.val / 4) + p.val; omega
  | ⟨1, _⟩ => show win1_0.index t (1 : Fin 2) * 3 + 1 * k.val = k.val; omega

theorem rd1 (c : Dev nD) (t : Fin cfg1.N) (k : Fin 3) (l : Fin 128) :
    (R1.iblk1 V c 1 t : S3x128.Idx → EReal) (ix2 k l)
      = (V c main_v2 : S3x512.Idx → EReal) (ix2 k (jOf (colT t) l)) := by
  obtain ⟨-, ⟨e0, e1⟩, -⟩ := tile_index t
  refine congrArg (V c main_v2 : S3x512.Idx → EReal) (funext fun a => Fin.ext ?_)
  match a with
  | ⟨0, _⟩ => show win1_1.index t (0 : Fin 2) * 3 + 1 * k.val = k.val; omega
  | ⟨1, _⟩ => show win1_1.index t (1 : Fin 2) * 128 + 1 * l.val = 128 * (t.val % 4) + l.val; omega

theorem rd2 (c : Dev nD) (t : Fin cfg1.N) (s : Fin 27) (k : Fin 3) :
    (R1.iblk1 V c 2 t : S27x3.Idx → EReal) (ix2 s k)
      = (V c main_v6 : S27x3.Idx → EReal) (ix2 s k) := by
  obtain ⟨-, -, ⟨e0, e1⟩, -⟩ := tile_index t
  refine congrArg (V c main_v6 : S27x3.Idx → EReal) (funext fun a => Fin.ext ?_)
  match a with
  | ⟨0, _⟩ => show win1_2.index t (0 : Fin 2) * 27 + 1 * s.val = s.val; omega
  | ⟨1, _⟩ => show win1_2.index t (1 : Fin 2) * 3 + 1 * k.val = k.val; omega

theorem rd3 (c : Dev nD) (t : Fin cfg1.N) (p : Fin 32) (u : Fin 1) :
    (R1.iblk1 V c 3 t : S32x1.Idx → EReal) (ix2 p u)
      = (V c main_v64 : S512x1.Idx → EReal) (ix2 (iOf (rowT t) p) (0 : Fin 1)) := by
  obtain ⟨-, -, -, ⟨e0, e1⟩, -⟩ := tile_index t
  refine congrArg (V c main_v64 : S512x1.Idx → EReal) (funext fun a => Fin.ext ?_)
  match a with
  | ⟨0, _⟩ => show win1_3.index t (0 : Fin 2) * 32 + 1 * p.val = 32 * (t.val / 4) + p.val; omega
  | ⟨1, _⟩ => show win1_3.index t (1 : Fin 2) * 1 + 1 * u.val = 0; omega

theorem rd4 (c : Dev nD) (t : Fin cfg1.N) (u : Fin 1) (l : Fin 128) :
    (R1.iblk1 V c 4 t : S1x128.Idx → EReal) (ix2 u l)
      = (V c main_v65 : S1x512.Idx → EReal) (ix2 (0 : Fin 1) (jOf (colT t) l)) := by
  obtain ⟨-, -, -, -, ⟨e0, e1⟩, -⟩ := tile_index t
  refine congrArg (V c main_v65 : S1x512.Idx → EReal) (funext fun a => Fin.ext ?_)
  match a with
  | ⟨0, _⟩ => show win1_4.index t (0 : Fin 2) * 1 + 1 * u.val = 0; omega
  | ⟨1, _⟩ => show win1_4.index t (1 : Fin 2) * 128 + 1 * l.val = 128 * (t.val % 4) + l.val; omega

theorem rd5 (c : Dev nD) (t : Fin cfg1.N) (p : Fin 32) (f : Fin 75) (l : Fin 128) :
    (R1.iblk1 V c 5 t : S32x75x128.Idx → EReal) (ix3 p f l)
      = (V c main_v45 : S512x75x512.Idx → EReal) (ix3 (iOf (rowT t) p) f (jOf (colT t) l)) := by
  obtain ⟨-, -, -, -, -, ⟨e0, e1, e2⟩, -⟩ := tile_index t
  refine congrArg (V c main_v45 : S512x75x512.Idx → EReal) (funext fun a => Fin.ext ?_)
  match a with
  | ⟨0, _⟩ => show win1_5.index t (0 : Fin 3) * 32 + 1 * p.val = 32 * (t.val / 4) + p.val; omega
  | ⟨1, _⟩ => show win1_5.index t (1 : Fin 3) * 75 + 1 * f.val = f.val; omega
  | ⟨2, _⟩ => show win1_5.index t (2 : Fin 3) * 128 + 1 * l.val = 128 * (t.val % 4) + l.val; omega

theorem rd6 (c : Dev nD) (t : Fin cfg1.N) (p : Fin 32) (l : Fin 128) :
    (R1.iblk1 V c 6 t : S32x128.Idx → EReal) (ix2 p l)
      = (V c main_v63 : S512x512.Idx → EReal) (ix2 (iOf (rowT t) p) (jOf (colT t) l)) := by
  obtain ⟨-, -, -, -, -, -, ⟨e0, e1⟩, -⟩ := tile_index t
  refine congrArg (V c main_v63 : S512x512.Idx → EReal) (funext fun a => Fin.ext ?_)
  match a with
  | ⟨0, _⟩ => show win1_6.index t (0 : Fin 2) * 32 + 1 * p.val = 32 * (t.val / 4) + p.val; omega
  | ⟨1, _⟩ => show win1_6.index t (1 : Fin 2) * 128 + 1 * l.val = 128 * (t.val % 4) + l.val; omega

theorem rd7 (c : Dev nD) (t : Fin cfg1.N) (p : Fin 32) (u : Fin 1) :
    (R1.iblk1 V c 7 t : S32x1.Idx → EReal) (ix2 p u)
      = (V c main_v23 : S512x1.Idx → EReal) (ix2 (iOf (rowT t) p) (0 : Fin 1)) := by
  obtain ⟨-, -, -, -, -, -, -, ⟨e0, e1⟩, -⟩ := tile_index t
  refine congrArg (V c main_v23 : S512x1.Idx → EReal) (funext fun a => Fin.ext ?_)
  match a with
  | ⟨0, _⟩ => show win1_7.index t (0 : Fin 2) * 32 + 1 * p.val = 32 * (t.val / 4) + p.val; omega
  | ⟨1, _⟩ => show win1_7.index t (1 : Fin 2) * 1 + 1 * u.val = 0; omega

theorem rd8 (c : Dev nD) (t : Fin cfg1.N) (u : Fin 1) (l : Fin 128) :
    (R1.iblk1 V c 8 t : S1x128.Idx → EReal) (ix2 u l)
      = (V c main_v24 : S1x512.Idx → EReal) (ix2 (0 : Fin 1) (jOf (colT t) l)) := by
  obtain ⟨-, -, -, -, -, -, -, -, ⟨e0, e1⟩, -⟩ := tile_index t
  refine congrArg (V c main_v24 : S1x512.Idx → EReal) (funext fun a => Fin.ext ?_)
  match a with
  | ⟨0, _⟩ => show win1_8.index t (0 : Fin 2) * 1 + 1 * u.val = 0; omega
  | ⟨1, _⟩ => show win1_8.index t (1 : Fin 2) * 128 + 1 * l.val = 128 * (t.val % 4) + l.val; omega

section Run
variable (c : Dev nD)
  (hP : ∀ (i : Fin 512) (k : Fin 3), (V c main_v1 : S512x3.Idx → EReal) (ix2 i k) = I.P i k)
  (hPT : ∀ (k : Fin 3) (j : Fin 512), (V c main_v2 : S3x512.Idx → EReal) (ix2 k j) = I.P j k)
  (hSh : ∀ (s : Fin 27) (k : Fin 3), (V c main_v6 : S27x3.Idx → EReal) (ix2 s k) = I.Sh s k)
  (hcn : ∀ i : Fin 512, (V c main_v64 : S512x1.Idx → EReal) (ix2 i 0) = cn i)
  (hcnr : ∀ j : Fin 512, (V c main_v65 : S1x512.Idx → EReal) (ix2 0 j) = cn j)
  (hT : ∀ (i j : Fin 512) (ch : Fin 3) (a b : Fin 5),
  (V c main_v45 : S512x75x512.Idx → EReal) (ix3 i ⟨25 * ch.val + 5 * a.val + b.val, by omega⟩ j) = I.T i j ch a b)
  (hR0 : ∀ i j : Fin 512, (V c main_v63 : S512x512.Idx → EReal) (ix2 i j) = I.R0 i j)
  (hR4c : ∀ i : Fin 512, (V c main_v23 : S512x1.Idx → EReal) (ix2 i 0) = I.R4 i)
  (hR4r : ∀ j : Fin 512, (V c main_v24 : S1x512.Idx → EReal) (ix2 0 j) = I.R4 j)

include hP hPT hSh hcn hcnr hT hR0 hR4c hR4r in
theorem point_step (t : Fin cfg1.N) (a : Vec Ideal S32x1 .f32) (p : Fin 32) :
    Pay1.step1 (R1.iblk1 V c 0 t) (R1.iblk1 V c 1 t) (R1.iblk1 V c 2 t) (R1.iblk1 V c 3 t) (R1.iblk1 V c 4 t) (R1.iblk1 V c 5 t) (R1.iblk1 V c 6 t) (R1.iblk1 V c 7 t) (R1.iblk1 V c 8 t) a (ix2 p 0)
      = a (ix2 p 0) + Spec.eTile I cn (iOf (rowT t) p) (colT t) :=
  Pay1.pay1_step I cn (rowT t) (colT t) _ _ _ _ _ _ _ _ _ a
    (fun p k => (rd0 V c t p k).trans (hP _ k))
    (fun k l => (rd1 V c t k l).trans (hPT k _))
    (fun s k => (rd2 V c t s k).trans (hSh s k))
    (fun p => (rd3 V c t p 0).trans (hcn _))
    (fun l => (rd4 V c t 0 l).trans (hcnr _))
    (fun p ch a b l => (rd5 V c t p _ l).trans (hT _ _ ch a b))
    (fun p l => (rd6 V c t p l).trans (hR0 _ _))
    (fun p => (rd7 V c t p 0).trans (hR4c _))
    (fun l => (rd8 V c t 0 l).trans (hR4r _)) p

def part (i : Fin 512) : ℕ → EReal
  | 0 => Spec.zero + Spec.eTile I cn i 0
  | j + 1 => part i j + Spec.eTile I cn i ⟨(j + 1) % 4, Nat.mod_lt _ (by decide)⟩

theorem part_three (i : Fin 512) : part I cn i 3 = Spec.eAtom I cn i := rfl

theorem outs_same (a b : ℕ) (ha : a < cfg1.N) (hb : b < cfg1.N) (e : a = b) :
    R1.outsAt1 (F := Ideal) V c a ha = R1.outsAt1 (F := Ideal) V c b hb := by
  subst e; rfl

include hP hPT hSh hcn hcnr hT hR0 hR4c hR4r in
theorem acc_at (q : Fin 16) : ∀ (j : ℕ) (hj : j < 4) (h : 4 * q.val + j < cfg1.N) (p : Fin 32),
    ((R1.outsAt1 (F := Ideal) V c (4 * q.val + j) h).2 : S32x1.Idx → EReal) (ix2 p 0) = part I cn (iOf q p) j
  | 0, _, h, p => by
    have hr : rowT ⟨4 * q.val + 0, h⟩ = q := Fin.ext (by show (4 * q.val + 0) / 4 = q.val; omega)
    have hc : colT ⟨4 * q.val + 0, h⟩ = 0 := Fin.ext (by show (4 * q.val + 0) % 4 = 0; omega)
    refine (congrFun (R1.scr1_reset (F := Ideal) V c ⟨4 * q.val + 0, h⟩
      (by show (4 * q.val + 0) % 4 = 0; omega)) (ix2 p 0)).trans ?_
    refine (point_step I cn V c hP hPT hSh hcn hcnr hT hR0 hR4c hR4r ⟨4 * q.val + 0, h⟩ _ p).trans ?_
    rw [Pay1.pay1_zero p, hr, hc]
    rfl
  | j + 1, hj, h, p => by
    have hr : rowT ⟨4 * q.val + (j + 1), h⟩ = q :=
      Fin.ext (by show (4 * q.val + (j + 1)) / 4 = q.val; omega)
    have hc : colT ⟨4 * q.val + (j + 1), h⟩ = ⟨(j + 1) % 4, Nat.mod_lt _ (by decide)⟩ :=
      Fin.ext (by show (4 * q.val + (j + 1)) % 4 = (j + 1) % 4; omega)
    refine (congrFun (R1.scr1_step (F := Ideal) V c ⟨4 * q.val + (j + 1), h⟩
      (by show ¬(4 * q.val + (j + 1)) % 4 = 0; omega)) (ix2 p 0)).trans ?_
    refine (point_step I cn V c hP hPT hSh hcn hcnr hT hR0 hR4c hR4r ⟨4 * q.val + (j + 1), h⟩ _ p).trans ?_
    rw [hr, hc]
    exact congrArg (fun z => z + Spec.eTile I cn (iOf q p) ⟨(j + 1) % 4, Nat.mod_lt _ (by decide)⟩)
      (acc_at q j (by omega) (by omega) p)

include hP hPT hSh hcn hcnr hT hR0 hR4c hR4r in
theorem acc_flush (t : Fin cfg1.N) (h3 : t.val % 4 = 3) :
    ((R1.outsAt1 (F := Ideal) V c t.val t.isLt).2 : S32x1.Idx → EReal)
      = fun y => Spec.eAtom I cn (iOf (rowT t) ⟨(y 0).val, idx2_lt0 y⟩) := by
  funext y
  obtain ⟨p, u, rfl⟩ : ∃ (p : Fin 32) (u : Fin 1), y = ix2 p u := ⟨y 0, y 1, eq_ix2 y⟩
  obtain rfl : u = 0 := Subsingleton.elim _ _
  have ht : t.val < 64 := t.isLt
  have e : t.val = 4 * (rowT t).val + 3 := by show t.val = 4 * (t.val / 4) + 3; omega
  have hb : 4 * (rowT t).val + 3 < cfg1.N := by rw [← e]; exact t.isLt
  rw [outs_same V c t.val (4 * (rowT t).val + 3) t.isLt hb e]
  exact (acc_at I cn V c hP hPT hSh hcn hcnr hT hR0 hR4c hR4r (rowT t) 3 (by decide) hb p).trans (part_three I cn _)

theorem mem_blk9 (t : Fin cfg1.N) (y : S512x1.Idx) :
    y ∈ ((cfg1.win 9).blk t).view.set
      ↔ ∀ a : Fin 2, win1_9.index t a * S32x1.size a ≤ (y a).val
          ∧ (y a).val < win1_9.index t a * S32x1.size a + S32x1.size a := by
  show y ∈ ((View.whole main_v66).slice (win1_9.rect t)).set ↔ _
  rw [View.set_slice_whole, Rect.mem_set_unit]
  exact Iff.rfl

theorem cover9 (y : S512x1.Idx) :
    ∃ t : Fin cfg1.N, (cfg1.win 9).flush t = true ∧ y ∈ ((cfg1.win 9).blk t).view.set := by
  have hy0 : (y 0).val < 512 := idx2_lt0 y
  have hy1 : (y 1).val < 1 := idx2_lt1 y
  have hN : cfg1.N = 64 := N_1
  have ht : 4 * ((y 0).val / 32) + 3 < cfg1.N := by rw [hN]; omega
  refine ⟨⟨4 * ((y 0).val / 32) + 3, ht⟩,
    (flush1_9 _).mpr (by show (4 * ((y 0).val / 32) + 3) % 4 = 3; omega), ?_⟩
  obtain ⟨-, -, -, -, -, -, -, -, -, e0, e1⟩ := tile_index ⟨4 * ((y 0).val / 32) + 3, ht⟩
  rw [mem_blk9]
  intro a
  match a with
  | ⟨0, _⟩ =>
    show win1_9.index ⟨4 * ((y 0).val / 32) + 3, ht⟩ (0 : Fin 2) * 32 ≤ (y 0).val
      ∧ (y 0).val < win1_9.index ⟨4 * ((y 0).val / 32) + 3, ht⟩ (0 : Fin 2) * 32 + 32
    rw [e0]
    show (4 * ((y 0).val / 32) + 3) / 4 * 32 ≤ (y 0).val ∧ (y 0).val < (4 * ((y 0).val / 32) + 3) / 4 * 32 + 32
    omega
  | ⟨1, _⟩ =>
    show win1_9.index ⟨4 * ((y 0).val / 32) + 3, ht⟩ (1 : Fin 2) * 1 ≤ (y 1).val
      ∧ (y 1).val < win1_9.index ⟨4 * ((y 0).val / 32) + 3, ht⟩ (1 : Fin 2) * 1 + 1
    rw [e1]
    omega

def eArr : S512x1.Idx → EReal :=
  fun y => Spec.eAtom I cn ⟨(y 0).val, idx2_lt0 y⟩

include hP hPT hSh hcn hcnr hT hR0 hR4c hR4r in
theorem flushed_eq (t : Fin cfg1.N) (hf : (cfg1.win 9).flush t = true) :
    (R1.dat1 (F := Ideal) V c).flushed 9 t = ((cfg1.win 9).blk t).view.read (Elt Ideal) (eArr I cn) := by
  have h3 : t.val % 4 = 3 := (flush1_9 t).mp hf
  obtain ⟨-, -, -, -, -, -, -, -, -, e0, e1⟩ := tile_index t
  show (cfg1.win 9).cut (grid1.coords t) ((R1.dat1 (F := Ideal) V c).after 9 t) = _
  rw [R1.after1_9, R1.out1_last V c t h3, acc_flush I cn V c hP hPT hSh hcn hcnr hT hR0 hR4c hR4r t h3]
  funext y
  show Spec.eAtom I cn (iOf (rowT t) ⟨(y 0).val, _⟩)
    = Spec.eAtom I cn ⟨((((cfg1.win 9).blk t).view.emb y) 0).val, _⟩
  congr 1
  apply Fin.ext
  show 32 * (t.val / 4) + (y 0).val = win1_9.index t (0 : Fin 2) * 32 + 1 * (y 0).val
  rw [e0]
  omega

include hP hPT hSh hcn hcnr hT hR0 hR4c hR4r in
theorem e_final (i : Fin 512) :
    ((R1.dat1 (F := Ideal) V c).arrAt 9 cfg1.N : S512x1.Idx → EReal) (ix2 i 0) = Spec.eAtom I cn i :=
  congrFun ((R1.dat1 (F := Ideal) V c).arrAt_eq_of_cover 9 (eArr I cn)
    (flushed_eq I cn V c hP hPT hSh hcn hcnr hT hR0 hR4c hR4r) cover9) (ix2 i 0)

end Run

end Cert.KernelIdeal.R1V

end
-- ==== Proof.InpOf.lean ====
import proofs.«426955_j43147241456154_3_alg».proof.Proof.Spec
import proofs.«426955_j43147241456154_3_alg».proof.ReferenceIdeal
import proofs.«426955_j43147241456154_3_alg».proof.Proof.Gen.ReferenceIdeal
import Idealize.ShloMosaic.Lib.ValueIdx

noncomputable section

namespace Cert.InpOf

open Idealize.ShloMosaic Idealize.ShloMosaic.ValueIdx Cert.ReferenceIdeal Cert.ReferenceIdeal.Facts₀

def bohr : FVec Ideal S_ .f32 := constant (F := Ideal) S_ .f32 0x3F077829#32

def posB (a1 : FVec Ideal S512x3 .f32) : FVec Ideal S512x3 .f32 :=
  Host.divf a1 (broadcastInDim S512x3 ![] bcast_S_S512x3 bohr)

def cellB (a3 : FVec Ideal S3x3 .f32) : FVec Ideal S3x3 .f32 :=
  Host.divf a3 (broadcastInDim S3x3 ![] bcast_S_S3x3 bohr)

def shifts (a2 : IVec S27x3 32) (a3 : FVec Ideal S3x3 .f32) : FVec Ideal S27x3 .f32 :=
  Host.dotGeneral dot_S27x3_S3x3_S27x3_1_0_0_1_n_n none (sitofp (F := Ideal) .f32 a2) (cellB a3)

def zNorm (a0 : IVec S512 32) : IVec S512 32 :=
  select (cmpi .slt a0 (broadcastInDim S512 ![] bcast_S_S512 (constantI S_ 32 0#32)))
    (addi a0 (broadcastInDim S512 ![] bcast_S_S512 (constantI S_ 32 95#32))) a0

def zIdx (a0 : IVec S512 32) : IVec S512x1 32 := broadcastInDim S512x1 ![0] bcast_S512_S512x1_0 (zNorm a0)

def zRow (a0 : IVec S512 32) : IVec S512x1 32 :=
  select (cmpi .slt (broadcastInDim S512x1 ![0] bcast_S512_S512x1_0 a0) (broadcastInDim S512x1 ![] bcast_S_S512x1 (constantI S_ 32 0#32)))
    (addi (broadcastInDim S512x1 ![0] bcast_S512_S512x1_0 a0) (broadcastInDim S512x1 ![] bcast_S_S512x1 (constantI S_ 32 95#32)))
    (broadcastInDim S512x1 ![0] bcast_S512_S512x1_0 a0)

def zCol (a0 : IVec S512 32) : IVec S1x512 32 :=
  select (cmpi .slt (broadcastInDim S1x512 ![1] bcast_S512_S1x512_1 a0) (broadcastInDim S1x512 ![] bcast_S_S1x512 (constantI S_ 32 0#32)))
    (addi (broadcastInDim S1x512 ![1] bcast_S512_S1x512_1 a0) (broadcastInDim S1x512 ![] bcast_S_S1x512 (constantI S_ 32 95#32)))
    (broadcastInDim S1x512 ![1] bcast_S512_S1x512_1 a0)

def pairIdx (a0 : IVec S512 32) : IVec S512x512x2 32 :=
  concatenate S512x512x2 2
    [⟨S512x512x1, broadcastInDim S512x512x1 ![0, 1] bcast_S512x512_S512x512x1_0_1
        (broadcastInDim S512x512 ![0, 1] bcast_S512x1_S512x512_0_1 (zRow a0))⟩,
     ⟨S512x512x1, broadcastInDim S512x512x1 ![0, 1] bcast_S512x512_S512x512x1_0_1
        (broadcastInDim S512x512 ![0, 1] bcast_S1x512_S512x512_0_1 (zCol a0))⟩]
    concatenates_S512x512x1_S512x512x1_S512x512x2_d2

def rcovZ (a0 : IVec S512 32) (a6 : FVec Ideal S95 .f32) : FVec Ideal S512 .f32 :=
  Host.gather gather_S95_S512x1_S512_n_0_n_n_0_1_1 a6 (zIdx a0)

def r2r4Z (a0 : IVec S512 32) (a7 : FVec Ideal S95 .f32) : FVec Ideal S512 .f32 :=
  Host.gather gather_S95_S512x1_S512_n_0_n_n_0_1_1 a7 (zIdx a0)

def c6abZ (a0 : IVec S512 32) (a4 : FVec Ideal S95x95x5x5x3 .f32) : FVec Ideal S512x512x5x5x3 .f32 :=
  Host.gather gather_S95x95x5x5x3_S512x512x2_S512x512x5x5x3_234_01_n_n_01_2_11553 a4 (pairIdx a0)

def r0abZ (a0 : IVec S512 32) (a5 : FVec Ideal S95x95 .f32) : FVec Ideal S512x512 .f32 :=
  Host.gather gather_S95x95_S512x512x2_S512x512_n_01_n_n_01_2_11 a5 (pairIdx a0)

def inpOf (a0 : IVec S512 32) (a1 : FVec Ideal S512x3 .f32) (a2 : IVec S27x3 32) (a3 : FVec Ideal S3x3 .f32)
    (a4 : FVec Ideal S95x95x5x5x3 .f32) (a5 : FVec Ideal S95x95 .f32) (a6 : FVec Ideal S95 .f32) (a7 : FVec Ideal S95 .f32) :
    Cert.Spec.Inp where
  P i k := posB a1 (ix2 i k)
  Sh s k := shifts a2 a3 (ix2 s k)
  RC i := rcovZ a0 a6 (ix1 i)
  R4 i := r2r4Z a0 a7 (ix1 i)
  T i j ch a b := c6abZ a0 a4 (ix5 i j a b ch)
  R0 i j := r0abZ a0 a5 (ix2 i j)

section Fields
variable (a0 : IVec S512 32) (a1 : FVec Ideal S512x3 .f32) (a2 : IVec S27x3 32) (a3 : FVec Ideal S3x3 .f32)
  (a4 : FVec Ideal S95x95x5x5x3 .f32) (a5 : FVec Ideal S95x95 .f32) (a6 : FVec Ideal S95 .f32) (a7 : FVec Ideal S95 .f32)

theorem P_def (i : Fin 512) (k : Fin 3) : (inpOf a0 a1 a2 a3 a4 a5 a6 a7).P i k = posB a1 (ix2 i k) := rfl
theorem Sh_def (s : Fin 27) (k : Fin 3) : (inpOf a0 a1 a2 a3 a4 a5 a6 a7).Sh s k = shifts a2 a3 (ix2 s k) := rfl
theorem RC_def (i : Fin 512) : (inpOf a0 a1 a2 a3 a4 a5 a6 a7).RC i = rcovZ a0 a6 (ix1 i) := rfl
theorem R4_def (i : Fin 512) : (inpOf a0 a1 a2 a3 a4 a5 a6 a7).R4 i = r2r4Z a0 a7 (ix1 i) := rfl
theorem T_def (i j : Fin 512) (ch : Fin 3) (a b : Fin 5) :
    (inpOf a0 a1 a2 a3 a4 a5 a6 a7).T i j ch a b = c6abZ a0 a4 (ix5 i j a b ch) := rfl
theorem R0_def (i j : Fin 512) : (inpOf a0 a1 a2 a3 a4 a5 a6 a7).R0 i j = r0abZ a0 a5 (ix2 i j) := rfl

end Fields

end Cert.InpOf

end
-- ==== Proof.KHost.lean ====
import proofs.«426955_j43147241456154_3_alg».proof.Proof.InpOf
import proofs.«426955_j43147241456154_3_alg».proof.Proof.Gen.KernelIdeal.Launch
import Idealize.ShloMosaic.Lib.ValueLayout
import Idealize.ShloMosaic.Lib.Pipeline.Value
import Idealize.ShloMosaic.Lib.StableHlo.Run

noncomputable section

namespace Cert.KernelIdeal.KHost

open Idealize.ShloMosaic Idealize.ShloMosaic.TcCoe Idealize.ShloMosaic.ValueIdx
open Cert.KernelIdeal Cert.KernelIdeal.Gen

section PairGather
variable {α : Type} {w : Nat} (idx : IVec S512x512x2 w) (i j : Fin 512)

/-- Component `c` of the start index of pair `(i, j)`, read signed and clamped into `[0, 94]`. -/
def zAt (c : Fin 2) : Fin 95 := ⟨min (idx (ix3 i j c)).toInt.toNat 94, by omega⟩

abbrev dK := gather_S95x95x75_S512x512x2_S512x512x75_2_01_n_n_01_2_1175
abbrev dR := Cert.ReferenceIdeal.gather_S95x95x5x5x3_S512x512x2_S512x512x5x5x3_234_01_n_n_01_2_11553

/-- Both gathers read component `c` of a pair's start index at `(i, j, c)`. -/
theorem dK_si (f : Fin 75) (c : Fin 2) : dK.siIdx (ix3 i j f) c = ix3 i j c :=
  funext fun e => Fin.ext (match e with | ⟨0, _⟩ => rfl | ⟨1, _⟩ => rfl | ⟨2, _⟩ => rfl)
theorem dR_si (a b : Fin 5) (ch : Fin 3) (c : Fin 2) : dR.siIdx (ix5 i j a b ch) c = ix3 i j c :=
  funext fun e => Fin.ext (match e with | ⟨0, _⟩ => rfl | ⟨1, _⟩ => rfl | ⟨2, _⟩ => rfl)

/-- Both gathers read the table at the pair's two clamped start indices; column `25 ch + 5 a + b` is the row-major position of `(ch, a, b)`. -/
theorem pairTable_apply (y : S95x95x5x5x3.Idx → α)
    (ht : S95x95x5x5x3.Transposes [0, 1, 4, 2, 3] S95x95x3x5x5) (hs : S95x95x3x5x5.ShapeCasts S95x95x75)
    (a b : Fin 5) (ch : Fin 3) (hf : 25 * ch.val + 5 * a.val + b.val < 75) :
    Host.gather dK (shapeCast S95x95x75 (transpose S95x95x3x5x5 [0, 1, 4, 2, 3] y ht) hs) idx
        (ix3 i j ⟨25 * ch.val + 5 * a.val + b.val, hf⟩)
      = Host.gather dR y idx (ix5 i j a b ch) := by
  have eK : dK.operandIdx (ix3 i j ⟨25 * ch.val + 5 * a.val + b.val, hf⟩) idx
      = ix3 (zAt idx i j 0) (zAt idx i j 1) ⟨25 * ch.val + 5 * a.val + b.val, hf⟩ :=
    funext fun e => Fin.ext (match e with
      | ⟨0, _⟩ => congrArg (fun q => min (idx q).toInt.toNat 94) (dK_si i j _ 0)
      | ⟨1, _⟩ => congrArg (fun q => min (idx q).toInt.toNat 94) (dK_si i j _ 1)
      | ⟨2, _⟩ => Nat.zero_add _)
  have eR : dR.operandIdx (ix5 i j a b ch) idx = ix5 (zAt idx i j 0) (zAt idx i j 1) a b ch :=
    funext fun e => Fin.ext (match e with
      | ⟨0, _⟩ => congrArg (fun q => min (idx q).toInt.toNat 94) (dR_si i j a b ch 0)
      | ⟨1, _⟩ => congrArg (fun q => min (idx q).toInt.toNat 94) (dR_si i j a b ch 1)
      | ⟨2, _⟩ => Nat.zero_add _ | ⟨3, _⟩ => Nat.zero_add _ | ⟨4, _⟩ => Nat.zero_add _)
  unfold Host.gather; rw [eK, eR]
  refine (shapeCast_apply _ hs _ (ix5 (zAt idx i j 0) (zAt idx i j 1) ch a b) ?_).trans
    (transpose_apply _ y ht _ _ fun c => match c with | ⟨0, _⟩ => rfl | ⟨1, _⟩ => rfl | ⟨2, _⟩ => rfl | ⟨3, _⟩ => rfl | ⟨4, _⟩ => rfl)
  rw [Shape.rowMajor_val_five, Shape.rowMajor_val_three]
  show ((((zAt idx i j 0).val * 95 + (zAt idx i j 1).val) * 3 + ch.val) * 5 + a.val) * 5 + b.val
    = ((zAt idx i j 0).val * 95 + (zAt idx i j 1).val) * 75 + (25 * ch.val + 5 * a.val + b.val)
  omega

end PairGather

/-- An `[a]` array cast to a column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) : shapeCast ⟨2, ![a, 1]⟩ x h (ix2 i 0) = x (ix1 i) :=
  shapeCast_apply x h _ _ (by rw [Shape.rowMajor_val_two, Shape.rowMajor_val_one]; show i.val = i.val * 1 + 0; omega)

variable (m : (ℓ : Loc nD τ sig) → Buf (Elt Ideal) ℓ) (c : Dev nD)

abbrev W1 : Valuation τ sig (Elt Ideal) := StableHlo.after (hostOps0 (F := Ideal)) (fun b => m (c, b))

/-- The shared mathematics' inputs on core `c`, from the eight argument arrays as launched. -/
abbrev KI : Cert.Spec.Inp :=
  Cert.InpOf.inpOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A two-piece concatenation, with the pieces as plain arguments. -/
def concatPair {α : Type} (t s : Shape) (a : Fin t.rank) (x y : s.Idx → α) (h : Shape.Concatenates [s, s] t a) : t.Idx → α :=
  concatenate t a [⟨s, x⟩, ⟨s, y⟩] h

theorem concatPair_eq {α : Type} (t s : Shape) (a : Fin t.rank) (x y : s.Idx → α) (h : Shape.Concatenates [s, s] t a) :
    concatenate t a [⟨s, x⟩, ⟨s, y⟩] h = concatPair t s a x y h := rfl

theorem pos_at (i : Fin 512) (k : Fin 3) :
    (W1 m c (Proc.devRef .tc main_v1) : S512x3.Idx → EReal) (ix2 i k) = (KI m c).P i k := by
  dsimp only [W1, hostOps0]; after_results_simp; rfl

theorem posT_at (k : Fin 3) (j : Fin 512) :
    (W1 m c (Proc.devRef .tc main_v2) : S3x512.Idx → EReal) (ix2 k j) = (KI m c).P j k := by
  dsimp only [W1, hostOps0]; after_results_simp; exact transpose_ix2_apply _ _ k j

theorem shifts_at (s : Fin 27) (k : Fin 3) :
    (W1 m c (Proc.devRef .tc main_v6) : S27x3.Idx → EReal) (ix2 s k) = (KI m c).Sh s k := by
  dsimp only [W1, hostOps0]; after_results_simp; rfl

theorem rcovCol_at (i : Fin 512) :
    (W1 m c (Proc.devRef .tc main_v21) : S512x1.Idx → EReal) (ix2 i (0 : Fin 1)) = (KI m c).RC i := by
  dsimp only [W1, hostOps0]; after_results_simp; exact shapeCast_a_a1_apply _ _ i

theorem rcovRow_at (j : Fin 512) :
    (W1 m c (Proc.devRef .tc main_v22) : S1x512.Idx → EReal) (ix2 (0 : Fin 1) j) = (KI m c).RC j := by
  dsimp only [W1, hostOps0]; after_results_simp; exact shapeCast_a_1a_apply _ _ 0 j

theorem r2r4Col_at (i : Fin 512) :
    (W1 m c (Proc.devRef .tc main_v23) : S512x1.Idx → EReal) (ix2 i (0 : Fin 1)) = (KI m c).R4 i := by
  dsimp only [W1, hostOps0]; after_results_simp; exact shapeCast_a_a1_apply _ _ i

theorem r2r4Row_at (j : Fin 512) :
    (W1 m c (Proc.devRef .tc main_v24) : S1x512.Idx → EReal) (ix2 (0 : Fin 1) j) = (KI m c).R4 j := by
  dsimp only [W1, hostOps0]; after_results_simp; exact shapeCast_a_1a_apply _ _ 0 j

theorem table_at (i j : Fin 512) (ch : Fin 3) (a b : Fin 5) (hf : 25 * ch.val + 5 * a.val + b.val < 75) :
    (W1 m c (Proc.devRef .tc main_v45) : S512x75x512.Idx → EReal) (ix3 i (⟨25 * ch.val + 5 * a.val + b.val, hf⟩ : Fin 75) j)
      = (KI m c).T i j ch a b := by
  dsimp only [W1, hostOps0]; after_results_simp; rw [concatPair_eq]; after_results_simp
  exact (transpose_ix3_021_apply _ _ i _ j).trans (pairTable_apply _ i j (m ((c : Thread nD τ).loc main_arg4)) _ _ a b ch hf)

theorem r0_at (i j : Fin 512) :
    (W1 m c (Proc.devRef .tc main_v63) : S512x512.Idx → EReal) (ix2 i j) = (KI m c).R0 i j := by
  dsimp only [W1, hostOps0]; after_results_simp; rw [concatPair_eq]; after_results_simp; rfl

end Cert.KernelIdeal.KHost

end
-- ==== Proof.KTail.lean ====
import proofs.«426955_j43147241456154_3_alg».proof.Proof.Spec
import proofs.«426955_j43147241456154_3_alg».proof.Proof.Gen.KernelIdeal.Launch
import Idealize.ShloMosaic.Lib.ValueIdx
import Idealize.ShloMosaic.Lib.StableHlo.Run
import Idealize.ShloMosaic.PureOps.Ideal.Laws
import Idealize.ShloMosaic.Lib.Pipeline.Value

noncomputable section

namespace Cert.KernelIdeal.KTail

open Cert.KernelIdeal Cert.KernelIdeal.Gen Idealize.ShloMosaic Idealize.ShloMosaic.ValueIdx

/-- The reshape of the 512 × 1 column to a 1 × 512 row keeps entry `j`: the row-major positions agree. -/
theorem mid_row (W : Valuation τ sig (Elt Ideal)) (j : Fin 512) :
    (StableHlo.after (hostOps1 (F := Ideal)) W (Proc.devRef .tc main_v65) : S1x512.Idx → EReal) (ix2 0 j)
      = (W (Proc.devRef .tc main_v64) : S512x1.Idx → EReal) (ix2 j 0) := by
  dsimp only [hostOps1]; after_results
  exact shapeCast_apply _ shapeCasts_S512x1_S1x512 _ (ix2 j 0) (by
    rw [Shape.rowMajor_val_two, Shape.rowMajor_val_two]; show j.val * 1 + 0 = 0 * 512 + j.val; omega)

/-- The tail is the scalar factor times the sum, from zero, of the column's 512 entries. -/
theorem tail_result (W : Valuation τ sig (Elt Ideal)) (e : Fin 512 → EReal)
    (h : ∀ i : Fin 512, (W (Proc.devRef .tc main_v66) : S512x1.Idx → EReal) (ix2 i 0) = e i) :
    (StableHlo.after (hostOps2 (F := Ideal)) W (Proc.devRef .tc main_v68) : S_.Idx → EReal)
      = fun _ => Cert.Spec.lit 0x41D9B0EB#32 * (Cert.Spec.zero + ∑ i : Fin 512, e i) := by
  dsimp only [hostOps2]; after_results
  funext k
  rw [mulf_apply, constant_apply]
  show Ideal.ofBits .f32 0x41D9B0EB#32
      * Ideal.hostReduceAdd reducesTo_S512x1_S_d0_1 (W (Proc.devRef .tc main_v66) : S512x1.Idx → EReal)
          (Ideal.ofBits .f32 0x00000000#32) k = _
  rw [Ideal.hostReduceAdd_total reducesTo_S512x1_S_d0_1 (fun b => b.elim0), sum_idx2]
  exact congrArg (fun s : EReal => Cert.Spec.lit 0x41D9B0EB#32 * (Cert.Spec.zero + s))
    (Finset.sum_congr rfl fun i _ => (Fin.sum_univ_one _).trans (h i))

end Cert.KernelIdeal.KTail

end
-- ==== Proof.KValue.lean ====
import proofs.«426955_j43147241456154_3_alg».proof.Proof.KI.Run
import proofs.«426955_j43147241456154_3_alg».proof.Proof.KI.R0Value
import proofs.«426955_j43147241456154_3_alg».proof.Proof.KI.R1Value
import proofs.«426955_j43147241456154_3_alg».proof.Proof.KHost
import proofs.«426955_j43147241456154_3_alg».proof.Proof.KTail

noncomputable section

namespace Cert.KernelIdeal.KValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

abbrev KI : Cert.Spec.Inp := KHost.KI m c

/-- An input array is never written: all but the first call's output and the reshape's result are kept. -/
theorem V3_keep (b : Ref sig .tc) (h : ∀ w, Pipeline.arrRef spec0 w = b → (cfg0.win w).isOut = false) (hne : b ∉ Run.hostOps1_W) :
    Run.V3 (F := Ideal) m ρ c b = Run.V1 m ρ c b := by
  refine (Run.W3_of m ρ c b hne).trans ?_
  by_cases hb : ∃ w, Pipeline.arrRef spec0 w = b
  · obtain ⟨w, rfl⟩ := hb
    exact (Run.W2_arr m ρ c w).trans (((R0.dat0 (Run.V1 m ρ) c).arrAt_in w (h w rfl) _).trans (R0.A_eq0 _ c w))
  · exact Run.W2_of_ne m ρ c b fun w e => hb ⟨w, e⟩

/-- Coordination numbers, then each atom's energy from them, then the scaled sum: the tiled program's value. -/
theorem result :
    (Run.W5 (F := Ideal) m ρ c (Proc.devRef .tc main_v68) : S_.Idx → EReal) = fun _ => Cert.Spec.resK (KI m c) := by
  have hcn (i : Fin 512) : (Run.W2 (F := Ideal) m ρ c (Proc.devRef .tc main_v64) : S512x1.Idx → EReal) (ix2 i 0)
      = Cert.Spec.cnK (KI m c) i :=
    (congrFun (Run.W2_arr m ρ c 5) _).trans (R0V.cn_final (Run.V1 m ρ) _ c (KHost.pos_at m c) (KHost.posT_at m c)
      (KHost.shifts_at m c) (KHost.rcovCol_at m c) (KHost.rcovRow_at m c) i)
  refine KTail.tail_result (Run.W4 (F := Ideal) m ρ c) (Cert.Spec.eAtom (KI m c) (Cert.Spec.cnK (KI m c))) fun i =>
    (congrFun (Run.W4_arr m ρ c 9) _).trans ?_
  exact R1V.e_final _ _ (Run.V3 m ρ) c
    (fun i k => V3_keep m ρ c main_v1 (by decide) (by decide) ▸ KHost.pos_at m c i k)
    (fun k j => V3_keep m ρ c main_v2 (by decide) (by decide) ▸ KHost.posT_at m c k j)
    (fun s k => V3_keep m ρ c main_v6 (by decide) (by decide) ▸ KHost.shifts_at m c s k)
    (fun i => (congrFun (Run.W3_of m ρ c main_v64 (by decide)) _).trans (hcn i))
    (fun j => (KTail.mid_row (Run.W2 (F := Ideal) m ρ c) j).trans (hcn j))
    (fun i j ch a b => V3_keep m ρ c main_v45 (by decide) (by decide) ▸ KHost.table_at m c i j ch a b (by omega))
    (fun i j => V3_keep m ρ c main_v63 (by decide) (by decide) ▸ KHost.r0_at m c i j)
    (fun i => V3_keep m ρ c main_v23 (by decide) (by decide) ▸ KHost.r2r4Col_at m c i)
    (fun j => V3_keep m ρ c main_v24 (by decide) (by decide) ▸ KHost.r2r4Row_at m c j) i

end Cert.KernelIdeal.KValue

end
-- ==== Proof.RefIdx.lean ====
import Idealize.ShloMosaic.Lib.IdealHost
import Mathlib.Algebra.BigOperators.Fin
import Mathlib.Order.Interval.Finset.Fin

noncomputable section

open scoped BigOperators

namespace Cert.RefIdx

open Idealize.ShloMosaic Idealize.ShloMosaic.ValueIdx

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

abbrev A3 : Shape := ⟨3, ![512, 512, 27]⟩
abbrev A1 : Shape := ⟨1, ![512]⟩

theorem drop12_0 (h : A3.ReducesTo [1, 2] A1) (i : A3.Idx) : (h.drop i 0 : Nat) = i 0 :=
  h.drop_apply_val_of_eq i 0 0

def emb12 (j : A1.Idx) : Fin 512 × Fin 27 ↪ A3.Idx :=
  ⟨fun p => ix3 (j 0) p.1 p.2, fun p p' e => Prod.ext (congrFun e 1) (congrFun e 2)⟩

theorem filter_drop12 (h : A3.ReducesTo [1, 2] A1) (j : A1.Idx) :
    (Finset.univ.filter fun i => h.drop i = j) = Finset.univ.map (emb12 j) := by
  ext i
  simp only [Finset.mem_filter, Finset.mem_univ, true_and, Finset.mem_map, emb12, Function.Embedding.coeFn_mk,
    Prod.exists]
  constructor
  · intro hd
    refine ⟨i 1, i 2, ?_⟩
    have h0 : j 0 = i 0 := Fin.ext ((congrArg (fun q : A1.Idx => (q 0 : Nat)) hd).symm.trans (drop12_0 h i))
    funext a
    match a with
    | ⟨0, _⟩ => exact h0
    | ⟨1, _⟩ => rfl
    | ⟨2, _⟩ => rfl
  · rintro ⟨b, s, rfl⟩
    funext a
    match a with
    | ⟨0, _⟩ => exact Fin.ext (drop12_0 h _)

theorem hostReduceAdd_d12 (h : A3.ReducesTo [1, 2] A1) (x : A3.Idx → EReal) (init : EReal) (j : A1.Idx) :
    Ideal.hostReduceAdd h x init j = init + ∑ b : Fin 512, ∑ s : Fin 27, x (ix3 (j 0) b s) := by
  unfold Ideal.hostReduceAdd
  rw [filter_drop12, Finset.sum_map, Fintype.sum_prod_type]
  rfl

abbrev A4 : Shape := ⟨4, ![512, 512, 5, 5]⟩
abbrev A2 : Shape := ⟨2, ![512, 512]⟩

theorem drop23_0 (h : A4.ReducesTo [2, 3] A2) (i : A4.Idx) : (h.drop i 0 : Nat) = i 0 :=
  h.drop_apply_val_of_eq i 0 0
theorem drop23_1 (h : A4.ReducesTo [2, 3] A2) (i : A4.Idx) : (h.drop i 1 : Nat) = i 1 :=
  h.drop_apply_val_of_eq i 1 1

def emb23 (j : A2.Idx) : Fin 5 × Fin 5 ↪ A4.Idx :=
  ⟨fun p => ix4 (j 0) (j 1) p.1 p.2, fun p p' e => Prod.ext (congrFun e 2) (congrFun e 3)⟩

theorem emb23_apply (j : A2.Idx) (p : Fin 5 × Fin 5) : emb23 j p = ix4 (j 0) (j 1) p.1 p.2 := rfl

theorem filter_drop23 (h : A4.ReducesTo [2, 3] A2) (j : A2.Idx) :
    (Finset.univ.filter fun i => h.drop i = j) = Finset.univ.map (emb23 j) := by
  ext i
  simp only [Finset.mem_filter, Finset.mem_univ, true_and, Finset.mem_map, emb23, Function.Embedding.coeFn_mk,
    Prod.exists]
  constructor
  · intro hd
    refine ⟨i 2, i 3, ?_⟩
    have h0 : j 0 = i 0 := Fin.ext ((congrArg (fun q : A2.Idx => (q 0 : Nat)) hd).symm.trans (drop23_0 h i))
    have h1 : j 1 = i 1 := Fin.ext ((congrArg (fun q : A2.Idx => (q 1 : Nat)) hd).symm.trans (drop23_1 h i))
    funext a
    match a with
    | ⟨0, _⟩ => exact h0
    | ⟨1, _⟩ => exact h1
    | ⟨2, _⟩ => rfl
    | ⟨3, _⟩ => rfl
  · rintro ⟨a', b', rfl⟩
    funext a
    match a with
    | ⟨0, _⟩ => exact Fin.ext (drop23_0 h _)
    | ⟨1, _⟩ => exact Fin.ext (drop23_1 h _)

theorem hostReduceAdd_d23 (h : A4.ReducesTo [2, 3] A2) (x : A4.Idx → EReal) (init : EReal) (j : A2.Idx) :
    Ideal.hostReduceAdd h x init j = init + ∑ ab : Fin 5 × Fin 5, x (ix4 (j 0) (j 1) ab.1 ab.2) := by
  unfold Ideal.hostReduceAdd
  rw [filter_drop23, Finset.sum_map]
  rfl

theorem fold_minimumf_top {ι : Type} (S : Finset ι) (g : ι → EReal) :
    S.fold (FloatOps.minimumf (F := Ideal) (φ := .f32)) (⊤ : EReal) g = S.inf g := by
  induction S using Finset.cons_induction with
  | empty => rfl
  | cons a S ha ih => rw [Finset.fold_cons, Finset.inf_cons, ih]; rfl

theorem hostReduceMin_d23 {u : Shape} (h : A4.ReducesTo [2, 3] A2) (hu : 0 < u.numel) (x : A4.Idx → EReal)
    (init : u.Idx → EReal) (hinit : init (Shape.Idx.first hu) = ⊤) (j : A2.Idx) :
    Host.reduce (FloatOps.minimumf (F := Ideal) (φ := .f32)) x init h hu j
      = Finset.univ.inf fun ab : Fin 5 × Fin 5 => x (ix4 (j 0) (j 1) ab.1 ab.2) := by
  rw [Host.reduce_eq_fold, filter_drop23, Finset.fold_map, hinit, fold_minimumf_top]
  rfl

end Cert.RefIdx

end
-- ==== Proof.RefValueA.lean ====
import proofs.«426955_j43147241456154_3_alg».proof.Proof.RefRead
import proofs.«426955_j43147241456154_3_alg».proof.Proof.InpOf
import proofs.«426955_j43147241456154_3_alg».proof.Proof.RefIdx
import Idealize.ShloMosaic.Lib.IdealHost

noncomputable section

open scoped BigOperators

namespace Cert.ReferenceIdeal.RefValue

open Idealize.ShloMosaic Idealize.ShloMosaic.ValueIdx Cert.ReferenceIdeal Cert.ReferenceIdeal.Read Cert.InpOf

variable (a0 : IVec S512 32) (a1 : FVec Ideal S512x3 .f32) (a2 : IVec S27x3 32) (a3 : FVec Ideal S3x3 .f32)
  (a4 : FVec Ideal S95x95x5x5x3 .f32) (a5 : FVec Ideal S95x95 .f32) (a6 : FVec Ideal S95 .f32) (a7 : FVec Ideal S95 .f32)

local notation "𝕀" => Cert.InpOf.inpOf a0 a1 a2 a3 a4 a5 a6 a7

theorem P_eq (q : S512x3.Idx) : val_main_v1 (F := Ideal) a1 q = Spec.Inp.P 𝕀 (q 0) (q 1) := by
  exact congrArg (val_main_v1 (F := Ideal) a1) (eq_ix2 q)

theorem Sh_eq (q : S27x3.Idx) : val_main_v5 (F := Ideal) a2 a3 q = Spec.Inp.Sh 𝕀 (q 0) (q 1) := by
  exact congrArg (val_main_v5 (F := Ideal) a2 a3) (eq_ix2 q)

theorem RC_eq (q : S512.Idx) : val_main_v30 (F := Ideal) a0 a6 q = Spec.Inp.RC 𝕀 (q 0) := by
  exact congrArg (val_main_v30 (F := Ideal) a0 a6) (eq_ix1 q)

theorem R4_eq (q : S512.Idx) : val_main_v109 (F := Ideal) a0 a7 q = Spec.Inp.R4 𝕀 (q 0) := by
  exact congrArg (val_main_v109 (F := Ideal) a0 a7) (eq_ix1 q)

theorem T_eq (q : S512x512x5x5x3.Idx) :
    val_main_v70 (F := Ideal) a0 a4 q = Spec.Inp.T 𝕀 (q 0) (q 1) (q 4) (q 2) (q 3) := by
  exact congrArg (val_main_v70 (F := Ideal) a0 a4) (eq_ix5 q)

theorem R0_eq (q : S512x512.Idx) : val_main_v135 (F := Ideal) a0 a5 q = Spec.Inp.R0 𝕀 (q 0) (q 1) := by
  exact congrArg (val_main_v135 (F := Ideal) a0 a5) (eq_ix2 q)

theorem dd_eq (q : S512x512x27x3.Idx) :
    val_main_v14 (F := Ideal) a1 a2 a3 q = Spec.dd 𝕀 (q 0) (q 1) (q 2) (q 3) := by
  rw [val_main_v14_apply, val_main_v12_apply, val_main_v10_apply, val_main_v8_apply, val_main_v6_apply,
    val_main_v9_apply, val_main_v7_apply, val_main_v13_apply, val_main_v11_apply, P_eq a0 a1 a2 a3 a4 a5 a6 a7, P_eq a0 a1 a2 a3 a4 a5 a6 a7, Sh_eq a0 a1 a2 a3 a4 a5 a6 a7]
  rfl

theorem r2_eq (q : S512x512x27.Idx) :
    val_main_v16 (F := Ideal) a1 a2 a3 q = Spec.r2 𝕀 (q 0) (q 1) (q 2) := by
  rw [val_main_v16_apply, val_main_cst_1_apply, Fin.sum_univ_three, Ideal.ofBits_def, Ideal.ofBits_zero_f32, zero_add]
  simp only [val_main_v15_apply, dd_eq a0 a1 a2 a3 a4 a5 a6 a7]
  rfl

theorem pm_eq (q : S512x512x27.Idx) :
    val_main_v18 (F := Ideal) a1 a2 a3 q = Spec.pm 𝕀 (q 0) (q 1) (q 2) := by
  rw [val_main_v18_apply, r2_eq a0 a1 a2 a3 a4 a5 a6 a7, val_main_v17_apply, val_main_cst_2_apply]
  rfl

theorem r2s_eq (q : S512x512x27.Idx) :
    val_main_v19 (F := Ideal) a1 a2 a3 q = Spec.r2s 𝕀 (q 0) (q 1) (q 2) := by
  rw [val_main_v19_apply, pm_eq a0 a1 a2 a3 a4 a5 a6 a7, r2_eq a0 a1 a2 a3 a4 a5 a6 a7, val_main_call0_v1_apply, val_main_call0_v0_apply, val_main_cst_3_apply]
  rfl

theorem rr_eq (q : S512x512x27.Idx) :
    val_main_v20 (F := Ideal) a1 a2 a3 q = Spec.rr 𝕀 (q 0) (q 1) (q 2) := by
  rw [val_main_v20_apply, r2s_eq a0 a1 a2 a3 a4 a5 a6 a7]
  rfl

theorem cutR_eq (q : S512x512x27.Idx) :
    val_main_v23 (F := Ideal) a1 a2 a3 q = Spec.cutR 𝕀 (q 0) (q 1) (q 2) := by
  rw [val_main_v23_apply, pm_eq a0 a1 a2 a3 a4 a5 a6 a7, val_main_v22_apply, rr_eq a0 a1 a2 a3 a4 a5 a6 a7, val_main_v21_apply, val_main_cst_4_apply]
  rfl

theorem rco_eq (q : S512x512.Idx) :
    val_main_v35 (F := Ideal) a0 a6 q = Spec.Inp.RC 𝕀 (q 0) + Spec.Inp.RC 𝕀 (q 1) := by
  rw [val_main_v35_apply, val_main_v33_apply, val_main_v31_apply, val_main_v34_apply, val_main_v32_apply, RC_eq a0 a1 a2 a3 a4 a5 a6 a7, RC_eq a0 a1 a2 a3 a4 a5 a6 a7]
  rfl

theorem damp_eq (q : S512x512x27.Idx) :
    val_main_v47 (F := Ideal) a0 a1 a2 a3 a6 q = Spec.damp 𝕀 (q 0) (q 1) (q 2) := by
  rw [val_main_v47_apply, val_main_v46_apply, val_main_cst_9_apply, val_main_v45_apply, val_main_v44_apply,
    val_main_cst_8_apply, val_main_v43_apply, val_main_v42_apply, val_main_v41_apply, val_main_cst_7_apply,
    val_main_v40_apply, val_main_v39_apply, val_main_cst_6_apply, val_main_v38_apply, val_main_v37_apply,
    val_main_v36_apply, rco_eq a0 a1 a2 a3 a4 a5 a6 a7, rr_eq a0 a1 a2 a3 a4 a5 a6 a7]
  rfl

theorem cnm_eq (q : S512x512x27.Idx) :
    val_main_v50 (F := Ideal) a1 a2 a3 q = Spec.cnm 𝕀 (q 0) (q 1) (q 2) := by
  rw [val_main_v50_apply, pm_eq a0 a1 a2 a3 a4 a5 a6 a7, val_main_v49_apply, rr_eq a0 a1 a2 a3 a4 a5 a6 a7, val_main_v48_apply, val_main_cst_10_apply]
  rfl

theorem contrib_eq (q : S512x512x27.Idx) :
    val_main_v51 (F := Ideal) a0 a1 a2 a3 a6 q = Spec.contrib 𝕀 (q 0) (q 1) (q 2) := by
  rw [val_main_v51_apply, cnm_eq a0 a1 a2 a3 a4 a5 a6 a7, damp_eq a0 a1 a2 a3 a4 a5 a6 a7, val_main_call1_v1_apply, val_main_call1_v0_apply, val_main_cst_11_apply]
  rfl

theorem cn_eq (q : S512.Idx) :
    val_main_v52 (F := Ideal) a0 a1 a2 a3 a6 q = Spec.cnR 𝕀 (q 0) := by
  refine (Cert.RefIdx.hostReduceAdd_d12 Gen.reducesTo_S512x512x27_S512_d1_2 (val_main_v51 (F := Ideal) a0 a1 a2 a3 a6)
    (val_main_cst_12 (F := Ideal) (Shape.Idx.first Gen.h_S_)) q).trans ?_
  simp only [contrib_eq a0 a1 a2 a3 a4 a5 a6 a7]
  rfl

end Cert.ReferenceIdeal.RefValue

end
-- ==== Proof.RefValueC.lean ====
import proofs.«426955_j43147241456154_3_alg».proof.Proof.RefValueA
import proofs.«426955_j43147241456154_3_alg».proof.Proof.Lits

noncomputable section

open scoped BigOperators

namespace Cert.ReferenceIdeal.RefValue

open Idealize.ShloMosaic Idealize.ShloMosaic.ValueIdx Cert.ReferenceIdeal Cert.ReferenceIdeal.Read Cert.InpOf

variable (a0 : IVec S512 32) (a1 : FVec Ideal S512x3 .f32) (a2 : IVec S27x3 32) (a3 : FVec Ideal S3x3 .f32)
  (a4 : FVec Ideal S95x95x5x5x3 .f32) (a5 : FVec Ideal S95x95 .f32) (a6 : FVec Ideal S95 .f32) (a7 : FVec Ideal S95 .f32)

local notation "𝕀" => Cert.InpOf.inpOf a0 a1 a2 a3 a4 a5 a6 a7

theorem idx72_eq (q : S512x512x5x5.Idx) : idx_main_v72 q = ix5 (q 0) (q 1) (q 2) (q 3) (0 : Fin 1) := by
  have h0 : (q 0).val < 512 := (q 0).isLt
  have h1 : (q 1).val < 512 := (q 1).isLt
  have h2 : (q 2).val < 5 := (q 2).isLt
  have h3 : (q 3).val < 5 := (q 3).isLt
  funext a
  match a with
  | ⟨0, _⟩ =>
    exact Fin.ext (by show ((((q 0).val * 512 + (q 1).val) * 5 + (q 2).val) * 5 + (q 3).val) / 12800 = (q 0).val; omega)
  | ⟨1, _⟩ =>
    exact Fin.ext (by show ((((q 0).val * 512 + (q 1).val) * 5 + (q 2).val) * 5 + (q 3).val) / 25 % 512 = (q 1).val; omega)
  | ⟨2, _⟩ =>
    exact Fin.ext (by show ((((q 0).val * 512 + (q 1).val) * 5 + (q 2).val) * 5 + (q 3).val) / 5 % 5 = (q 2).val; omega)
  | ⟨3, _⟩ =>
    exact Fin.ext (by show ((((q 0).val * 512 + (q 1).val) * 5 + (q 2).val) * 5 + (q 3).val) / 1 % 5 = (q 3).val; omega)
  | ⟨4, _⟩ => rfl

theorem idx77_eq (q : S512x512x5x5.Idx) : idx_main_v77 q = ix5 (q 0) (q 1) (q 2) (q 3) (0 : Fin 1) := idx72_eq q
theorem idx83_eq (q : S512x512x5x5.Idx) : idx_main_v83 q = ix5 (q 0) (q 1) (q 2) (q 3) (0 : Fin 1) := idx72_eq q

theorem T0_eq (q : S512x512x5x5.Idx) :
    val_main_v72 (F := Ideal) a0 a4 q = Spec.Inp.T 𝕀 (q 0) (q 1) 0 (q 2) (q 3) := by
  rw [val_main_v72_apply, val_main_v71_apply, T_eq a0 a1 a2 a3 a4 a5 a6 a7, idx72_eq]
  rfl

theorem T1_eq (q : S512x512x5x5.Idx) :
    val_main_v77 (F := Ideal) a0 a4 q = Spec.Inp.T 𝕀 (q 0) (q 1) 1 (q 2) (q 3) := by
  rw [val_main_v77_apply, val_main_v76_apply, T_eq a0 a1 a2 a3 a4 a5 a6 a7, idx77_eq]
  rfl

theorem T2_eq (q : S512x512x5x5.Idx) :
    val_main_v83 (F := Ideal) a0 a4 q = Spec.Inp.T 𝕀 (q 0) (q 1) 2 (q 2) (q 3) := by
  rw [val_main_v83_apply, val_main_v82_apply, T_eq a0 a1 a2 a3 a4 a5 a6 a7, idx83_eq]
  rfl

theorem valid_eq (q : S512x512x5x5.Idx) :
    val_main_v74 (F := Ideal) a0 a4 q = Spec.valid 𝕀 (q 0) (q 1) (q 2) (q 3) := by
  rw [val_main_v74_apply, T0_eq a0 a1 a2 a3 a4 a5 a6 a7, val_main_v73_apply, val_main_cst_17_apply]
  rfl

theorem dcn_eq (q : S512x512x5x5.Idx) :
    val_main_v87 (F := Ideal) a0 a1 a2 a3 a4 a6 q = Spec.dcn 𝕀 (Spec.cnR 𝕀) (q 0) (q 1) (q 2) (q 3) := by
  rw [val_main_v87_apply, val_main_v80_apply, val_main_v79_apply, val_main_v78_apply, val_main_v75_apply, cn_eq a0 a1 a2 a3 a4 a5 a6 a7, T1_eq a0 a1 a2 a3 a4 a5 a6 a7,
    val_main_v86_apply, val_main_v85_apply, val_main_v84_apply, val_main_v81_apply, cn_eq a0 a1 a2 a3 a4 a5 a6 a7, T2_eq a0 a1 a2 a3 a4 a5 a6 a7]
  rfl

theorem sel_eq (q : S512x512x5x5.Idx) :
    val_main_v88 (F := Ideal) a0 a1 a2 a3 a4 a6 q
      = Scalar.select (Spec.valid 𝕀 (q 0) (q 1) (q 2) (q 3)) (Spec.dcn 𝕀 (Spec.cnR 𝕀) (q 0) (q 1) (q 2) (q 3))
          (Spec.lit 0x501502F9#32) := by
  rw [val_main_v88_apply, valid_eq a0 a1 a2 a3 a4 a5 a6 a7, dcn_eq a0 a1 a2 a3 a4 a5 a6 a7, val_main_call2_v1_apply, val_main_call2_v0_apply, val_main_cst_18_apply]
  rfl

theorem dmin_eq (q : S512x512.Idx) :
    val_main_v89 (F := Ideal) a0 a1 a2 a3 a4 a6 q = Spec.dmin 𝕀 (Spec.cnR 𝕀) (q 0) (q 1) := by
  refine (Cert.RefIdx.hostReduceMin_d23 Gen.reducesTo_S512x512x5x5_S512x512_d2_3 Gen.h_S_
    (val_main_v88 (F := Ideal) a0 a1 a2 a3 a4 a6) (val_main_cst_19 (F := Ideal)) ?_ q).trans ?_
  · exact Cert.Spec.lit_top
  · simp only [sel_eq a0 a1 a2 a3 a4 a5 a6 a7]
    rfl

theorem wgt_eq (q : S512x512x5x5.Idx) :
    val_main_v96 (F := Ideal) a0 a1 a2 a3 a4 a6 q = Spec.wgt 𝕀 (Spec.cnR 𝕀) (q 0) (q 1) (q 2) (q 3) := by
  rw [val_main_v96_apply, valid_eq a0 a1 a2 a3 a4 a5 a6 a7, val_main_v95_apply, val_main_v94_apply, val_main_v93_apply, val_main_cst_20_apply,
    val_main_v92_apply, dcn_eq a0 a1 a2 a3 a4 a5 a6 a7, val_main_v91_apply, val_main_v90_apply, dmin_eq a0 a1 a2 a3 a4 a5 a6 a7, val_main_call3_v1_apply,
    val_main_call3_v0_apply, val_main_cst_21_apply]
  rfl

theorem sumw_eq (q : S512x512.Idx) :
    val_main_v99 (F := Ideal) a0 a1 a2 a3 a4 a6 q = Spec.sumw 𝕀 (Spec.cnR 𝕀) (q 0) (q 1) := by
  refine (Cert.RefIdx.hostReduceAdd_d23 Gen.reducesTo_S512x512x5x5_S512x512_d2_3
    (val_main_v96 (F := Ideal) a0 a1 a2 a3 a4 a6) (val_main_cst_23 (F := Ideal) (Shape.Idx.first Gen.h_S_)) q).trans ?_
  rw [show val_main_cst_23 (F := Ideal) (Shape.Idx.first Gen.h_S_) = 0 from Ideal.ofBits_zero_f32, zero_add]
  simp only [wgt_eq a0 a1 a2 a3 a4 a5 a6 a7]
  rfl

theorem sumc6w_eq (q : S512x512.Idx) :
    val_main_v98 (F := Ideal) a0 a1 a2 a3 a4 a6 q = Spec.sumc6w 𝕀 (Spec.cnR 𝕀) (q 0) (q 1) := by
  refine (Cert.RefIdx.hostReduceAdd_d23 Gen.reducesTo_S512x512x5x5_S512x512_d2_3
    (val_main_v97 (F := Ideal) a0 a1 a2 a3 a4 a6) (val_main_cst_22 (F := Ideal) (Shape.Idx.first Gen.h_S_)) q).trans ?_
  rw [show val_main_cst_22 (F := Ideal) (Shape.Idx.first Gen.h_S_) = 0 from Ideal.ofBits_zero_f32, zero_add]
  simp only [val_main_v97_apply, T0_eq a0 a1 a2 a3 a4 a5 a6 a7, wgt_eq a0 a1 a2 a3 a4 a5 a6 a7]
  rfl

theorem c6_eq (q : S512x512.Idx) :
    val_main_v102 (F := Ideal) a0 a1 a2 a3 a4 a6 q = Spec.c6 𝕀 (Spec.cnR 𝕀) (q 0) (q 1) := by
  rw [val_main_v102_apply, sumc6w_eq a0 a1 a2 a3 a4 a5 a6 a7, val_main_v101_apply, sumw_eq a0 a1 a2 a3 a4 a5 a6 a7, val_main_v100_apply, val_main_cst_24_apply]
  rfl

theorem c8_eq (q : S512x512.Idx) :
    val_main_v117 (F := Ideal) a0 a1 a2 a3 a4 a6 a7 q = Spec.c8 𝕀 (Spec.cnR 𝕀) (q 0) (q 1) := by
  rw [val_main_v117_apply, val_main_v114_apply, val_main_v111_apply, val_main_v110_apply, val_main_cst_27_apply, c6_eq a0 a1 a2 a3 a4 a5 a6 a7,
    val_main_v113_apply, val_main_v112_apply, R4_eq a0 a1 a2 a3 a4 a5 a6 a7, val_main_v116_apply, val_main_v115_apply, R4_eq a0 a1 a2 a3 a4 a5 a6 a7]
  rfl

end Cert.ReferenceIdeal.RefValue

end
-- ==== Proof.RefValue.lean ====
import proofs.«426955_j43147241456154_3_alg».proof.Proof.RefValueC

noncomputable section

open scoped BigOperators

namespace Cert.ReferenceIdeal.RefValue

open Idealize.ShloMosaic Idealize.ShloMosaic.ValueIdx Cert.ReferenceIdeal Cert.ReferenceIdeal.Read Cert.InpOf

variable (a0 : IVec S512 32) (a1 : FVec Ideal S512x3 .f32) (a2 : IVec S27x3 32) (a3 : FVec Ideal S3x3 .f32)
  (a4 : FVec Ideal S95x95x5x5x3 .f32) (a5 : FVec Ideal S95x95 .f32) (a6 : FVec Ideal S95 .f32) (a7 : FVec Ideal S95 .f32)

local notation "𝕀" => Cert.InpOf.inpOf a0 a1 a2 a3 a4 a5 a6 a7

theorem r6_eq (q : S512x512x27.Idx) :
    val_main_v138 (F := Ideal) a1 a2 a3 q = Spec.r6 𝕀 (q 0) (q 1) (q 2) := by
  rw [val_main_v138_apply, pm_eq a0 a1 a2 a3 a4 a5 a6 a7, val_main_v137_apply, val_main_v136_apply, r2_eq a0 a1 a2 a3 a4 a5 a6 a7, val_main_call4_v1_apply,
    val_main_call4_v0_apply, val_main_cst_32_apply]
  rfl

theorem r8_eq (q : S512x512x27.Idx) :
    val_main_v140 (F := Ideal) a1 a2 a3 q = Spec.r8 𝕀 (q 0) (q 1) (q 2) := by
  rw [val_main_v140_apply, r6_eq a0 a1 a2 a3 a4 a5 a6 a7, val_main_v139_apply, pm_eq a0 a1 a2 a3 a4 a5 a6 a7, r2_eq a0 a1 a2 a3 a4 a5 a6 a7, val_main_call5_v1_apply, val_main_call5_v0_apply,
    val_main_cst_33_apply]
  rfl

theorem t6_eq (q : S512x512x27.Idx) :
    val_main_v147 (F := Ideal) a0 a1 a2 a3 a5 q = Spec.t6R 𝕀 (q 0) (q 1) (q 2) := by
  rw [val_main_v147_apply, val_main_v145_apply, rr_eq a0 a1 a2 a3 a4 a5 a6 a7, val_main_v144_apply, val_main_v143_apply, val_main_v142_apply,
    val_main_cst_34_apply, val_main_v141_apply, R0_eq a0 a1 a2 a3 a4 a5 a6 a7, val_main_v146_apply, val_main_cst_35_apply]
  rfl

theorem t8_eq (q : S512x512x27.Idx) :
    val_main_v154 (F := Ideal) a0 a1 a2 a3 a5 q = Spec.t8R 𝕀 (q 0) (q 1) (q 2) := by
  rw [val_main_v154_apply, val_main_v152_apply, rr_eq a0 a1 a2 a3 a4 a5 a6 a7, val_main_v151_apply, val_main_v150_apply, val_main_v149_apply,
    val_main_cst_36_apply, val_main_v148_apply, R0_eq a0 a1 a2 a3 a4 a5 a6 a7, val_main_v153_apply, val_main_cst_37_apply]
  rfl

theorem e6_eq (q : S512x512x27.Idx) :
    val_main_v164 (F := Ideal) a0 a1 a2 a3 a4 a5 a6 q
      = Spec.e6 𝕀 (Spec.cnR 𝕀) (Spec.t6R 𝕀 (q 0) (q 1) (q 2)) (q 0) (q 1) (q 2) := by
  rw [val_main_v164_apply, val_main_v159_apply, val_main_v158_apply, val_main_v157_apply, val_main_v156_apply,
    val_main_cst_38_apply, val_main_v155_apply, c6_eq a0 a1 a2 a3 a4 a5 a6 a7, r6_eq a0 a1 a2 a3 a4 a5 a6 a7, val_main_v163_apply, val_main_v162_apply,
    val_main_cst_40_apply, val_main_v161_apply, val_main_v160_apply, val_main_cst_39_apply, t6_eq a0 a1 a2 a3 a4 a5 a6 a7]
  rfl

theorem e8_eq (q : S512x512x27.Idx) :
    val_main_v174 (F := Ideal) a0 a1 a2 a3 a4 a5 a6 a7 q
      = Spec.e8 𝕀 (Spec.cnR 𝕀) (Spec.t8R 𝕀 (q 0) (q 1) (q 2)) (q 0) (q 1) (q 2) := by
  rw [val_main_v174_apply, val_main_v169_apply, val_main_v168_apply, val_main_v167_apply, val_main_v166_apply,
    val_main_cst_41_apply, val_main_v165_apply, c8_eq a0 a1 a2 a3 a4 a5 a6 a7, r8_eq a0 a1 a2 a3 a4 a5 a6 a7, val_main_v173_apply, val_main_v172_apply,
    val_main_cst_43_apply, val_main_v171_apply, val_main_v170_apply, val_main_cst_42_apply, t8_eq a0 a1 a2 a3 a4 a5 a6 a7]
  rfl

theorem val_eq (q : S512x512x27.Idx) :
    val_main_v176 (F := Ideal) a0 a1 a2 a3 a4 a5 a6 a7 q = Spec.valR 𝕀 (Spec.cnR 𝕀) (q 0) (q 1) (q 2) := by
  rw [val_main_v176_apply, cutR_eq a0 a1 a2 a3 a4 a5 a6 a7, val_main_v175_apply, e6_eq a0 a1 a2 a3 a4 a5 a6 a7, e8_eq a0 a1 a2 a3 a4 a5 a6 a7, val_main_call6_v1_apply, val_main_call6_v0_apply,
    val_main_cst_44_apply]
  rfl

theorem ref_result :
    val_main_v179 (F := Ideal) a0 a1 a2 a3 a4 a5 a6 a7 = fun _ => Cert.Spec.resR 𝕀 := by
  funext i
  rw [val_main_v179_apply, val_main_v178_apply, val_main_v177_apply, Cert.RefIdx.sum_idx3]
  simp only [val_eq a0 a1 a2 a3 a4 a5 a6 a7]
  rfl

end Cert.ReferenceIdeal.RefValue

end
-- ==== Proof.FiniteIn.lean ====
import Idealize.ShloMosaic.Lib.ReduceAll
import Idealize.ShloMosaic.Lib.ValueIdx
import Idealize.ShloMosaic.PureOps.Ideal
import Idealize.ShloMosaic.PureOps.Ideal.Laws
import proofs.«426955_j43147241456154_3_alg».proof.Pre_finite_inputs
import proofs.«426955_j43147241456154_3_alg».proof.Proof.Spec
import proofs.«426955_j43147241456154_3_alg».proof.Proof.InpOf
import proofs.«426955_j43147241456154_3_alg».proof.Proof.Lits

noncomputable section

namespace Cert.FiniteIn

open Idealize.ShloMosaic Cert.Pre_finite_inputs

instance : Subsingleton S_.Idx := ⟨fun a b => funext fun d => d.elim0⟩

-- max x (-x) is ⊤ at both infinities, so the comparison fails there.
theorem real_of_abs_lt_inf (x : EReal)
    (h : Ideal.cmp .olt (max x (-x)) (Ideal.ofBits .f32 0x7F800000#32) = 1#1) : ∃ r : ℝ, x = (r : EReal) := by
  rw [show Ideal.ofBits .f32 0x7F800000#32 = (⊤ : EReal) from Cert.Spec.lit_top] at h
  induction x using EReal.rec with
  | bot => simp [Ideal.cmp] at h
  | top => simp [Ideal.cmp] at h
  | coe r => exact ⟨r, rfl⟩

theorem array_real {S : Shape} {axes : List (Fin S.rank)} (hb : S_.BroadcastsInDim S (![] : Fin 0 → Fin S.rank))
    (hr : S.ReducesTo axes S_) (hu : 0 < S_.numel) (a : FVec Ideal S .f32)
    (h : Host.reduce IntOp.andi
          (cmpf .olt (Host.absf a) (broadcastInDim S ![] hb (constant (F := Ideal) S_ .f32 0x7F800000#32)))
          (constantI S_ 1 1#1) hr hu ValueIdx.ix0 = 1#1) (y : S.Idx) : ∃ r : ℝ, a y = (r : EReal) :=
  real_of_abs_lt_inf (a y) (Host.reduce_andi_all _ _ hr hu _ h y)

-- A real over the nonzero real the length unit denotes is a real.
theorem div_bohr_real (x : EReal) (hx : ∃ r : ℝ, x = (r : EReal)) :
    ∃ r : ℝ, Ideal.div x (Ideal.ofBits .f32 0x3F077829#32) = (r : EReal) := by
  obtain ⟨r, rfl⟩ := hx
  have hc : (8878121 / 2 ^ 24 : ℝ) ≠ 0 := by norm_num
  exact ⟨r * (1 / _), by
    rw [show Ideal.ofBits .f32 0x3F077829#32 = _ from Cert.Spec.lit_bohr, Ideal.div_coe hc, EReal.coe_mul]⟩

theorem sum_real {ι : Type} (s : Finset ι) (f : ι → EReal) (hf : ∀ i, ∃ r : ℝ, f i = (r : EReal)) :
    ∃ r : ℝ, ∑ i ∈ s, f i = (r : EReal) :=
  Finset.sum_induction f (fun x => ∃ r : ℝ, x = (r : EReal))
    (fun _ _ ⟨a, ha⟩ ⟨b, hb⟩ => ⟨a + b, by rw [ha, hb, EReal.coe_add]⟩) ⟨0, rfl⟩ fun i _ => hf i

-- Each entry of a product of two arrays is a finite sum of products of their entries.
theorem dot_real {sl sr so : Shape} {φ₁ φ₂ : FTy} (d : DotDims sl sr so) (prec : Option ContractPrecision)
    (lhs : FVec Ideal sl φ₁) (rhs : FVec Ideal sr φ₂) (hl : ∀ i, ∃ r : ℝ, lhs i = (r : EReal))
    (hr : ∀ i, ∃ r : ℝ, rhs i = (r : EReal)) (j : so.Idx) :
    ∃ r : ℝ, Host.dotGeneral (F := Ideal) d prec lhs rhs j = (r : EReal) := by
  rw [show Host.dotGeneral (F := Ideal) d prec lhs rhs j = ∑ k : d.contr.Idx, lhs (d.lhsIdx j k) * rhs (d.rhsIdx j k)
    from Ideal.dotGeneral_apply d prec .single lhs rhs j]
  refine sum_real _ _ fun k => ?_
  obtain ⟨p, hp⟩ := hl (d.lhsIdx j k)
  obtain ⟨q, hq⟩ := hr (d.rhsIdx j k)
  exact ⟨p * q, by rw [hp, hq, EReal.coe_mul]⟩

variable [Cert.Pre_finite_inputs.Facts]

-- Each shared input entry is an argument's entry, one over the length unit, or a finite sum of integer-times-real products.
theorem finite_inpOf (a0 : IVec S512 32) (a1 : FVec Ideal S512x3 .f32) (a2 : IVec S27x3 32) (a3 : FVec Ideal S3x3 .f32)
    (a4 : FVec Ideal S95x95x5x5x3 .f32) (a5 : FVec Ideal S95x95 .f32) (a6 : FVec Ideal S95 .f32) (a7 : FVec Ideal S95 .f32)
    (h : Cert.Pre_finite_inputs.fn (F := Ideal) a0 a1 a2 a3 a4 a5 a6 a7 = fun _ => 1#1) :
    Cert.Spec.Finite (Cert.InpOf.inpOf a0 a1 a2 a3 a4 a5 a6 a7) := by
  have h0 := congrFun h ValueIdx.ix0
  dsimp only [Cert.Pre_finite_inputs.fn, Cert.Pre_finite_inputs.fn_part1] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h1, h3⟩ := IntOp.andi_eq_one.1 h0
  refine ⟨fun i k => ?_, fun s k => ?_, fun i => ?_, fun i => ?_, fun i j ch a b => ?_, fun i j => ?_⟩
  · rw [Cert.InpOf.P_def]
    exact div_bohr_real _ (array_real _ _ _ a1 h1 _)
  · rw [Cert.InpOf.Sh_def]
    exact dot_real _ _ _ _ (fun i => ⟨(((a2 i).toInt : ℝ)), rfl⟩) (fun i => div_bohr_real _ (array_real _ _ _ a3 h3 i)) _
  · rw [Cert.InpOf.RC_def]
    exact array_real _ _ _ a6 h6 _
  · rw [Cert.InpOf.R4_def]
    exact array_real _ _ _ a7 h7 _
  · rw [Cert.InpOf.T_def]
    exact array_real _ _ _ a4 h4 _
  · rw [Cert.InpOf.R0_def]
    exact array_real _ _ _ a5 h5 _

end Cert.FiniteIn

end
-- ==== Proof.MathSums.lean ====
import proofs.«426955_j43147241456154_3_alg».proof.Proof.Spec
import Idealize.ShloMosaic.PureOps.Ideal.Laws
import Mathlib.Data.EReal.Basic
import Mathlib.Data.Fintype.BigOperators
import Mathlib.Data.Fintype.EquivFin
import Mathlib.Algebra.BigOperators.Fin
import Mathlib.Algebra.BigOperators.Ring.Finset
import Mathlib.Tactic.Ring

noncomputable section

namespace Cert.Spec

open Idealize.ShloMosaic

variable (I : Inp)

theorem jOf_bijective : Function.Bijective fun p : Fin 4 × Fin 128 => jOf p.1 p.2 := by
  rw [Fintype.bijective_iff_injective_and_card]
  refine ⟨?_, by simp⟩
  rintro ⟨a, b⟩ ⟨c, d⟩ h
  simp only [jOf, Fin.mk.injEq] at h
  refine Prod.ext (Fin.ext ?_) (Fin.ext ?_) <;> simp only <;> omega

-- (tile, lane) ↦ 128·tile + lane is a bijection, so a sum may be taken tile by tile.
theorem sum_tiles {M : Type*} [AddCommMonoid M] (f : Fin 512 → M) :
    ∑ jt : Fin 4, ∑ l : Fin 128, f (jOf jt l) = ∑ j : Fin 512, f j :=
  (Fintype.sum_prod_type' fun jt l => f (jOf jt l)).symm.trans
    (Fintype.sum_bijective _ jOf_bijective _ _ fun _ => rfl)

theorem coe_sum {ι : Type*} (s : Finset ι) (g : ι → ℝ) :
    ∑ a ∈ s, (g a : EReal) = ((∑ a ∈ s, g a : ℝ) : EReal) := by
  classical
  induction s using Finset.induction_on with
  | empty => simp
  | insert a s ha ih => rw [Finset.sum_insert ha, Finset.sum_insert ha, ih, EReal.coe_add]

-- Only associativity and commutativity of + are used, so no term need be finite.
theorem cnK_eq_cnR : cnK I = cnR I := by
  funext i
  have hz : zero = 0 := Ideal.ofBits_zero_f32
  unfold cnK cnR cnTile
  rw [hz, zero_add, zero_add, ← sum_tiles fun j => ∑ s : Fin 27, contrib I i j s, Fin.sum_univ_four]

-- Multiplication by a real distributes over a finite sum of reals.
theorem resK_eq_resR_of
    (hh : ∃ r : ℝ, lit 0xBF000000#32 = (r : EReal))
    (hv : ∀ i j s, valK I (cnR I) i j s = valR I (cnR I) i j s)
    (hr : ∀ i j s, ∃ x : ℝ, valK I (cnR I) i j s = (x : EReal)) : resK I = resR I := by
  obtain ⟨r, hh⟩ := hh
  have hz : zero = 0 := Ideal.ofBits_zero_f32
  choose v hK using hr
  have hR : ∀ i j s, valR I (cnR I) i j s = (v i j s : EReal) := fun i j s => (hv i j s).symm.trans (hK i j s)
  have hT : ∀ i jt, eTile I (cnR I) i jt
      = ((r * ∑ l : Fin 128, ∑ s : Fin 27, v i (jOf jt l) s : ℝ) : EReal) := by
    intro i jt
    unfold eTile
    simp only [hK, hh, coe_sum, ← EReal.coe_mul]
  have hA : ∀ i, eAtom I (cnR I) i = ((r * ∑ j : Fin 512, ∑ s : Fin 27, v i j s : ℝ) : EReal) := by
    intro i
    unfold eAtom
    rw [hz, zero_add, hT, hT, hT, hT, ← EReal.coe_add, ← EReal.coe_add, ← EReal.coe_add,
      ← sum_tiles fun j => ∑ s : Fin 27, v i j s, Fin.sum_univ_four]
    congr 1
    ring
  unfold resK resR
  rw [cnK_eq_cnR, hz, zero_add, zero_add]
  simp only [hA, hR, hh, coe_sum, ← EReal.coe_mul]
  rw [Finset.mul_sum]

end Cert.Spec

end
-- ==== Proof.MathPoint.lean ====
import proofs.«426955_j43147241456154_3_alg».proof.Proof.Spec
import proofs.«426955_j43147241456154_3_alg».proof.Proof.Lits
import Mathlib.Analysis.Real.Sqrt
import Mathlib.Analysis.SpecialFunctions.Pow.Real
import Mathlib.Data.EReal.Basic
import Mathlib.Data.EReal.Operations
import Mathlib.Data.EReal.Inv
import Mathlib.Data.Finset.Lattice.Fold
import Mathlib.Algebra.BigOperators.Group.Finset.Basic
import Mathlib.Tactic.Ring
import Mathlib.Tactic.Linarith
import Mathlib.Tactic.NormNum
import Mathlib.Tactic.Positivity

noncomputable section

namespace Cert.Spec

open Idealize.ShloMosaic

-- A real, a nonnegative real and a positive real among the extended reals.
def IsR (x : EReal) : Prop := ∃ r : ℝ, x = (r : EReal)
def IsNN (x : EReal) : Prop := ∃ r : ℝ, 0 ≤ r ∧ x = (r : EReal)
def IsP (x : EReal) : Prop := ∃ r : ℝ, 0 < r ∧ x = (r : EReal)

theorem div_coe_coe (a b : ℝ) (hb : b ≠ 0) : Ideal.div (a : EReal) (b : EReal) = ((a / b : ℝ) : EReal) := by
  rw [Ideal.div_coe hb, ← EReal.coe_mul, mul_one_div]

theorem sqrt_coe_pos {a : ℝ} (ha : 0 < a) : Ideal.sqrt (a : EReal) = ((Real.sqrt a : ℝ) : EReal) := by
  rw [Ideal.sqrt_coe, if_neg (not_lt.mpr ha.le)]

section Closure
variable {x y : EReal}

theorem IsP.isNN : IsP x → IsNN x | ⟨r, hr, h⟩ => ⟨r, hr.le, h⟩
theorem IsNN.isR : IsNN x → IsR x | ⟨r, _, h⟩ => ⟨r, h⟩
theorem IsP.isR (h : IsP x) : IsR x := h.isNN.isR

theorem IsR.add : IsR x → IsR y → IsR (x + y)
  | ⟨a, hx⟩, ⟨b, hy⟩ => ⟨a + b, by rw [hx, hy, EReal.coe_add]⟩
theorem IsR.sub : IsR x → IsR y → IsR (x - y)
  | ⟨a, hx⟩, ⟨b, hy⟩ => ⟨a - b, by rw [hx, hy, EReal.coe_sub]⟩
theorem IsR.mul : IsR x → IsR y → IsR (x * y)
  | ⟨a, hx⟩, ⟨b, hy⟩ => ⟨a * b, by rw [hx, hy, EReal.coe_mul]⟩
theorem IsR.mul_self : IsR x → IsNN (x * x)
  | ⟨a, hx⟩ => ⟨a * a, mul_self_nonneg a, by rw [hx, EReal.coe_mul]⟩
theorem IsNN.add : IsNN x → IsNN y → IsNN (x + y)
  | ⟨a, ha, hx⟩, ⟨b, hb, hy⟩ => ⟨a + b, add_nonneg ha hb, by rw [hx, hy, EReal.coe_add]⟩
theorem IsNN.mul : IsNN x → IsNN y → IsNN (x * y)
  | ⟨a, ha, hx⟩, ⟨b, hb, hy⟩ => ⟨a * b, mul_nonneg ha hb, by rw [hx, hy, EReal.coe_mul]⟩
theorem IsP.mul : IsP x → IsP y → IsP (x * y)
  | ⟨a, ha, hx⟩, ⟨b, hb, hy⟩ => ⟨a * b, mul_pos ha hb, by rw [hx, hy, EReal.coe_mul]⟩
theorem IsP.add_nn : IsP x → IsNN y → IsP (x + y)
  | ⟨a, ha, hx⟩, ⟨b, hb, hy⟩ => ⟨a + b, add_pos_of_pos_of_nonneg ha hb, by rw [hx, hy, EReal.coe_add]⟩
theorem IsR.div : IsR x → IsP y → IsR (Ideal.div x y)
  | ⟨a, hx⟩, ⟨b, hb, hy⟩ => ⟨a / b, by rw [hx, hy, div_coe_coe a b hb.ne']⟩
theorem IsNN.div : IsNN x → IsP y → IsNN (Ideal.div x y)
  | ⟨a, ha, hx⟩, ⟨b, hb, hy⟩ => ⟨a / b, div_nonneg ha hb.le, by rw [hx, hy, div_coe_coe a b hb.ne']⟩
theorem IsP.div : IsP x → IsP y → IsP (Ideal.div x y)
  | ⟨a, ha, hx⟩, ⟨b, hb, hy⟩ => ⟨a / b, div_pos ha hb, by rw [hx, hy, div_coe_coe a b hb.ne']⟩
theorem IsR.exp : IsR x → IsP (Ideal.exp x)
  | ⟨a, hx⟩ => ⟨Real.exp a, Real.exp_pos a, by rw [hx, Ideal.exp_coe]⟩
theorem IsP.sqrt : IsP x → IsP (Ideal.sqrt x)
  | ⟨a, ha, hx⟩ => ⟨Real.sqrt a, Real.sqrt_pos.mpr ha, by rw [hx, sqrt_coe_pos ha]⟩
theorem IsR.max_pos : IsR x → IsP y → IsP (max x y)
  | ⟨a, hx⟩, ⟨b, hb, hy⟩ => ⟨max a b, lt_max_of_lt_right hb, by rw [hx, hy]; exact (EReal.coe_strictMono.monotone.map_max).symm⟩

end Closure

theorem select_pos {α : Type} {c : BitVec 1} (h : c = 1) (a b : α) : Scalar.select c a b = a := if_pos h
theorem select_neg {α : Type} {c : BitVec 1} (h : c ≠ 1) (a b : α) : Scalar.select c a b = b := if_neg h

-- A selection has a property its second value has and its first value has where selected.
theorem select_ind (p : EReal → Prop) (c : BitVec 1) {a b : EReal} (ha : c = 1 → p a) (hb : p b) :
    p (Scalar.select c a b) := by
  by_cases h : c = 1
  · rw [select_pos h]; exact ha h
  · rw [select_neg h]; exact hb

theorem isR_sum {ι : Type} (s : Finset ι) (f : ι → EReal) (h : ∀ i ∈ s, IsR (f i)) : IsR (∑ i ∈ s, f i) :=
  Finset.sum_induction f IsR (fun _ _ ha hb => ha.add hb) ⟨0, rfl⟩ h

theorem isR_inf {ι : Type} (s : Finset ι) (hs : s.Nonempty) (f : ι → EReal) (h : ∀ i ∈ s, IsR (f i)) :
    IsR (s.inf f) := by
  obtain ⟨i, hi, e⟩ := Finset.exists_mem_eq_inf s hs f
  rw [e]; exact h i hi

theorem cmp_ogt_iff (x y : EReal) : Ideal.cmp .ogt x y = 1 ↔ y < x := by
  unfold Ideal.cmp; by_cases h : y < x <;> simp [h]

theorem cmp_ole_congr {x y x' y' : EReal} (h : x ≤ y ↔ x' ≤ y') : Ideal.cmp .ole x y = Ideal.cmp .ole x' y' := by
  unfold Ideal.cmp; by_cases hxy : x ≤ y
  · simp [hxy, h.mp hxy]
  · simp [hxy, mt h.mpr hxy]

-- Where the first bit is 0 the conjunction is 0 whatever the second bit.
theorem andi_congr (a b b' : BitVec 1) (h : a = 1 → b = b') : IntOp.andi a b = IntOp.andi a b' := by
  rcases BitVec.eq_zero_or_eq_one a with rfl | rfl
  · unfold IntOp.andi; simp
  · rw [h rfl]

theorem zero_isR : IsR zero := ⟨0, zero_eq_coe⟩
theorem one_isP : IsP one := ⟨1, one_pos, one_eq⟩
theorem six_isNN : IsNN six := ⟨6, by norm_num, six_eq⟩

-- Each damped term is a real: a real over a positive real over 1 + 6 t with t ≥ 0.
theorem term_isR {n r t : EReal} (hn : IsR n) (hr : IsP r) (ht : IsNN t) :
    IsR (Ideal.div (Ideal.div n r) (one + six * t)) := (hn.div hr).div (one_isP.add_nn (six_isNN.mul ht))

-- A negative integer power inverts the quotient; at a = 0 both sides are 0, the left one as ⊤ ^ (-m).
theorem pow_div_neg (s a : ℝ) (hs : 0 < s) (m : ℕ) (hm : 0 < m) :
    Ideal.pow (Ideal.div (s : EReal) (a : EReal)) ((-(m : ℝ) : ℝ) : EReal) = (((a / s) ^ m : ℝ) : EReal) := by
  have hm' : (0 : ℝ) < m := by exact_mod_cast hm
  by_cases ha : a = 0
  · subst ha
    have hdiv : Ideal.div (s : EReal) ((0 : ℝ) : EReal) = ⊤ := by
      unfold Ideal.div
      rw [if_pos EReal.coe_zero, if_pos (EReal.coe_pos.mpr hs)]
    have h1 : ¬ (0 : EReal) < ((-(m : ℝ) : ℝ) : EReal) := by
      rw [EReal.coe_pos]; intro h; linarith
    have h2 : ¬ ((-(m : ℝ) : ℝ) : EReal) = 0 := by
      rw [EReal.coe_eq_zero]; intro h; linarith
    rw [hdiv, Ideal.pow_top, if_neg h1, if_neg h2, zero_div, zero_pow hm.ne', EReal.coe_zero]
  · rw [div_coe_coe s a ha, Ideal.pow_coe_coe, EReal.coe_eq_coe_iff, Real.rpow_eq_pow]
    have hcast : (-(m : ℝ)) = (((-(m : ℤ)) : ℤ) : ℝ) := by push_cast; ring
    rw [hcast, Real.rpow_intCast, zpow_neg, zpow_natCast, ← inv_pow, inv_div]

-- (√y / a) ^ (-2n) = (a² / y)ⁿ: the plain program's power against the tiled program's quotient.
theorem pow_law (k r0 : ℝ) {y : ℝ} (hy : 0 < y) (n : ℕ) (hn : 0 < n) {e : EReal}
    (he : e = ((-((2 * n : ℕ) : ℝ) : ℝ) : EReal)) :
    Ideal.pow (Ideal.div (Ideal.sqrt (y : EReal)) ((k : EReal) * (r0 : EReal))) e
      = ((((k * r0) * (k * r0) / y) ^ n : ℝ) : EReal) := by
  rw [he, sqrt_coe_pos hy, ← EReal.coe_mul, pow_div_neg _ _ (Real.sqrt_pos.mpr hy) (2 * n) (by omega), pow_mul,
    div_pow (k * r0) (Real.sqrt y) 2, Real.sq_sqrt hy.le, sq]

theorem q_coe (k r0 y : ℝ) (hy : 0 < y) :
    Ideal.div (((k : EReal) * (r0 : EReal)) * ((k : EReal) * (r0 : EReal))) (y : EReal)
      = (((k * r0) * (k * r0) / y : ℝ) : EReal) := by
  rw [← EReal.coe_mul, ← EReal.coe_mul, div_coe_coe _ _ hy.ne']

section Pair
variable {I : Inp} (hI : Finite I) (i j : Fin 512) (s : Fin 27)
include hI

theorem Finite.P (k : Fin 3) : IsR (I.P i k) := hI.1 i k
theorem Finite.Sh (k : Fin 3) : IsR (I.Sh s k) := hI.2.1 s k
theorem Finite.RC : IsR (I.RC i) := hI.2.2.1 i
theorem Finite.R4 : IsR (I.R4 i) := hI.2.2.2.1 i
theorem Finite.T (ch : Fin 3) (a b : Fin 5) : IsR (I.T i j ch a b) := hI.2.2.2.2.1 i j ch a b
theorem Finite.R0 : IsR (I.R0 i j) := hI.2.2.2.2.2 i j

theorem dd_isR (k : Fin 3) : IsR (dd I i j s k) := ((hI.P j k).sub (hI.P i k)).add (hI.Sh s k)

theorem r2_isNN : IsNN (r2 I i j s) :=
  ((dd_isR hI i j s 0).mul_self.add (dd_isR hI i j s 1).mul_self).add (dd_isR hI i j s 2).mul_self

theorem r2_isP_of_pm {i j s} (h : pm I i j s = 1) : IsP (r2 I i j s) := by
  obtain ⟨x, _, hx⟩ := r2_isNN hI i j s
  have hlt : lit 0x322BCC77#32 < r2 I i j s := (cmp_ogt_iff _ _).mp h
  rw [hx, lit_eps, EReal.coe_lt_coe_iff] at hlt
  exact ⟨x, lt_trans (by positivity) hlt, hx⟩

theorem r2s_isP : IsP (r2s I i j s) := select_ind IsP _ (r2_isP_of_pm hI) one_isP

theorem rr_isP : IsP (rr I i j s) := (r2s_isP hI i j s).sqrt

theorem r6_isP : IsP (r6 I i j s) :=
  select_ind IsP _ (fun h => ((r2_isP_of_pm hI h).mul (r2_isP_of_pm hI h)).mul (r2_isP_of_pm hI h)) one_isP

theorem r8_isP : IsP (r8 I i j s) := (r6_isP hI i j s).mul (r2s_isP hI i j s)

-- The square root is monotone and 95² = 9025.
theorem cutK_eq_cutR : cutK I i j s = cutR I i j s := by
  unfold cutK cutR
  apply andi_congr
  intro h
  obtain ⟨x, hx, hr2⟩ := r2_isP_of_pm hI h
  rw [rr, r2s, select_pos h, hr2, sqrt_coe_pos hx, lit_9025, lit_95]
  apply cmp_ole_congr
  rw [EReal.coe_le_coe_iff, EReal.coe_le_coe_iff, Real.sqrt_le_left (by norm_num)]
  norm_num

theorem t6K_eq_t6R : t6K I i j s = t6R I i j s := by
  obtain ⟨y, hy, hr2s⟩ := r2s_isP hI i j s
  obtain ⟨r0, hr0⟩ := hI.R0 i j
  obtain ⟨k, hk⟩ := lit_real 0x3F9BC6A8#32 (by decide)
  simp only [t6K, t6R, rr]
  rw [hr2s, hr0, hk, pow_law k r0 hy 7 (by norm_num) lit_m14, q_coe k r0 y hy]
  simp only [← EReal.coe_mul]
  rw [EReal.coe_eq_coe_iff]; ring

theorem t8K_eq_t8R : t8K I i j s = t8R I i j s := by
  obtain ⟨y, hy, hr2s⟩ := r2s_isP hI i j s
  obtain ⟨r0, hr0⟩ := hI.R0 i j
  simp only [t8K, t8R, rr]
  rw [hr2s, hr0, one_eq, pow_law 1 r0 hy 8 (by norm_num) lit_m16, q_coe 1 r0 y hy]
  simp only [← EReal.coe_mul]
  rw [EReal.coe_eq_coe_iff]; ring

theorem t6K_isNN : IsNN (t6K I i j s) := by
  have hq := (IsR.mul (lit_real 0x3F9BC6A8#32 (by decide)) (hI.R0 i j)).mul_self.div (r2s_isP hI i j s)
  exact (((hq.mul hq).mul (hq.mul hq)).mul (hq.mul hq)).mul hq

theorem t8K_isNN : IsNN (t8K I i j s) := by
  have hq := (IsR.mul one_isP.isR (hI.R0 i j)).mul_self.div (r2s_isP hI i j s)
  exact ((hq.mul hq).mul (hq.mul hq)).mul ((hq.mul hq).mul (hq.mul hq))

theorem contrib_isR : IsR (contrib I i j s) :=
  select_ind IsR _ (fun _ => (one_isP.div (one_isP.add_nn (IsR.mul ⟨_, lit_m16⟩
    ((((hI.RC i).add (hI.RC j)).div (rr_isP hI i j s)).sub one_isP.isR)).exp.isNN)).isR) zero_isR

theorem cnR_real : IsR (cnR I i) :=
  zero_isR.add (isR_sum _ _ fun j _ => isR_sum _ _ fun s _ => contrib_isR hI i j s)

variable (c : Fin 512 → EReal) (hc : ∀ i, IsR (c i))

theorem valK_eq_valR : valK I c i j s = valR I c i j s := by
  unfold valK valR
  rw [cutK_eq_cutR hI, t6K_eq_t6R hI, t8K_eq_t8R hI]

include hc

theorem c6_isR : IsR (c6 I c i j) := by
  have hd (a b : Fin 5) : IsR (dcn I c i j a b) :=
    (((hc i).sub (hI.T i j 1 a b)).mul ((hc i).sub (hI.T i j 1 a b))).add
      (((hc j).sub (hI.T i j 2 a b)).mul ((hc j).sub (hI.T i j 2 a b)))
  have hm : IsR (dmin I c i j) :=
    isR_inf _ Finset.univ_nonempty _ fun ab _ => select_ind IsR _ (fun _ => hd ab.1 ab.2) (lit_real 0x501502F9#32 (by decide))
  have hw (a b : Fin 5) : IsR (wgt I c i j a b) :=
    select_ind IsR _ (fun _ => (IsR.mul (lit_real 0xC0800000#32 (by decide)) ((hd a b).sub hm)).exp.isR) zero_isR
  exact (isR_sum _ _ fun ab _ => (hI.T i j 0 ab.1 ab.2).mul (hw ab.1 ab.2)).div
    ((isR_sum _ _ fun ab _ => hw ab.1 ab.2).max_pos ⟨_, by positivity, lit_tiny⟩)

theorem valK_real : IsR (valK I c i j s) :=
  select_ind IsR _ (fun _ =>
    (term_isR (one_isP.isR.mul (c6_isR hI i j c hc)) (r6_isP hI i j s) (t6K_isNN hI i j s)).add
      (term_isR (IsR.mul (lit_real 0x3F38D4FE#32 (by decide)) (((IsR.mul (lit_real 0x40400000#32 (by decide)) (c6_isR hI i j c hc)).mul (hI.R4 i)).mul (hI.R4 j)))
        (r8_isP hI i j s) (t8K_isNN hI i j s))) zero_isR

end Pair

end Cert.Spec

end
-- ==== Proof.MathAll.lean ====
import proofs.«426955_j43147241456154_3_alg».proof.Proof.Lits
import proofs.«426955_j43147241456154_3_alg».proof.Proof.MathSums
import proofs.«426955_j43147241456154_3_alg».proof.Proof.MathPoint

noncomputable section

namespace Cert.Spec

-- On real inputs the two pair energies agree term by term and are real, so the sums agree in any order.
theorem res_eq {I : Inp} (hI : Finite I) : resK I = resR I :=
  resK_eq_resR_of I (lit_real 0xBF000000#32 (by decide))
    (fun i j s => valK_eq_valR hI i j s _)
    (fun i j s => valK_real hI i j s _ (cnR_real hI))

end Cert.Spec

end
-- ==== Proof.lean ====
import proofs.«426955_j43147241456154_3_alg».proof.Defs
import proofs.«426955_j43147241456154_3_alg».proof.Proof.Gen.Kernel
import proofs.«426955_j43147241456154_3_alg».proof.Proof.Gen.KernelIdeal
import proofs.«426955_j43147241456154_3_alg».proof.Proof.Gen.ReferenceIdeal
import proofs.«426955_j43147241456154_3_alg».proof.Proof.Gen.Pre_finite_inputs
import proofs.«426955_j43147241456154_3_alg».proof.Proof.K.Run
import proofs.«426955_j43147241456154_3_alg».proof.Proof.KValue
import proofs.«426955_j43147241456154_3_alg».proof.Proof.RefValue
import proofs.«426955_j43147241456154_3_alg».proof.Proof.RefRun
import proofs.«426955_j43147241456154_3_alg».proof.Proof.FiniteIn
import proofs.«426955_j43147241456154_3_alg».proof.Proof.MathAll
import Idealize.ShloMosaic.Adequacy
import Idealize.ShloMosaic.Init

noncomputable section

namespace Cert.Proof

open Idealize.ShloMosaic Idealize.SL.Sem

theorem frame_p : Cert.frame_Kernel := fun m ρ _ =>
  Cert.Kernel.Run.run_main (F := Bits) m ρ fun s h c => by
    repeat' apply And.intro
    all_goals exact Cert.Kernel.Run.arg_kept m ρ c h _ (by decide)

theorem frame_pi : Cert.frame_KernelIdeal := fun m ρ _ =>
  Cert.KernelIdeal.Run.run_main (F := Ideal) m ρ fun s h c => by
    repeat' apply And.intro
    all_goals exact Cert.KernelIdeal.Run.arg_kept m ρ c h _ (by decide)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at one energy of the shared inputs, in its tiled and its plain form; on real inputs the forms agree. -/
theorem algebraic : Cert.algebraic_KernelIdeal_ReferenceIdeal := by
  intro m ρ m' ρ' hpre hagree
  refine ⟨fun c => (fun _ => Cert.Spec.resK (Cert.KernelIdeal.KHost.KI m c)), ?_, ?_⟩
  · refine Cert.KernelIdeal.Run.run_main (F := Ideal) m ρ fun s h c =>
      ⟨(h c _ (Cert.KernelIdeal.Run.mem_uc Cert.KernelIdeal.main_v68 (by decide))).trans (Cert.KernelIdeal.KValue.result m ρ c), ?_⟩
    repeat' apply And.intro
    all_goals exact Cert.KernelIdeal.Run.arg_kept m ρ c h _ (by decide)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_result,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    funext _
    exact (Cert.Spec.res_eq (Cert.FiniteIn.finite_inpOf _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
